-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S1x800000 : Shape := ⟨2, ![1, 800000]⟩
abbrev S800000 : Shape := ⟨1, ![800000]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg1
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg1 : IVec S2x800000 32) (main_arg9 : FVec F S128x256 .f32) (main_arg10 : FVec F S256 .f32) (main_arg11 : FVec F S256x10 .f32) (main_arg12 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x10 .f32 := Host.absf main_arg11
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_arg1 main_v48 main_v49 main_v50

def fn_part1 {F : FTy → Type} [FloatOps F] (main_arg1 : IVec S2x800000 32) (main_arg6 : FVec F S64 .f32) (main_arg7 : FVec F S64x128 .f32) (main_arg8 : FVec F S128 .f32) (main_arg9 : FVec F S128x256 .f32) (main_arg10 : FVec F S256 .f32) (main_arg11 : FVec F S256x10 .f32) (main_arg12 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x5 .f32) (main_arg1 : IVec S2x800000 32) (main_arg2 : IVec S50000 32) (main_arg3 : FVec F S5x32 .f32) (main_arg4 : FVec F S32 .f32) (main_arg5 : FVec F S32x64 .f32) (main_arg6 : FVec F S64 .f32) (main_arg7 : FVec F S64x128 .f32) (main_arg8 : FVec F S128 .f32) (main_arg9 : FVec F S128x256 .f32) (main_arg10 : FVec F S256 .f32) (main_arg11 : FVec F S256x10 .f32) (main_arg12 : FVec F S10 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x32 .f32 := Host.absf main_arg3
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg6 main_arg7 main_arg8 main_arg9 main_arg10 main_arg11 main_arg12 main_v13 main_v16
-- ==== Kernel.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x32 : Shape := ⟨2, ![50000, 32]⟩
abbrev S2000x5 : Shape := ⟨2, ![2000, 5]⟩
abbrev S2000x32 : Shape := ⟨2, ![2000, 32]⟩
abbrev S1 : Shape := ⟨1, ![1]⟩
abbrev S1x1 : Shape := ⟨2, ![1, 1]⟩
abbrev S800000x32 : Shape := ⟨2, ![800000, 32]⟩
abbrev S50000x1 : Shape := ⟨2, ![50000, 1]⟩
abbrev S1x32 : Shape := ⟨2, ![1, 32]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S50000x256 : Shape := ⟨2, ![50000, 256]⟩
abbrev S2000x256 : Shape := ⟨2, ![2000, 256]⟩
abbrev S800000x256 : Shape := ⟨2, ![800000, 256]⟩
abbrev S1x256 : Shape := ⟨2, ![1, 256]⟩
abbrev S1x10 : Shape := ⟨2, ![1, 10]⟩
abbrev S512x10 : Shape := ⟨2, ![512, 10]⟩
abbrev S512x256 : Shape := ⟨2, ![512, 256]⟩
abbrev S512x1 : Shape := ⟨2, ![512, 1]⟩
abbrev S2000x512 : Shape := ⟨2, ![2000, 512]⟩
abbrev S512 : Shape := ⟨1, ![512]⟩

abbrev nBuf : Space → Nat
  | .hbm => 188
  | .vmem => 65
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S50000x32, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x32, .f32⟩
  | 69 => ⟨S800000x32, .i1⟩
  | 70 => ⟨S_, .f32⟩
  | 71 => ⟨S800000x32, .f32⟩
  | 72 => ⟨S800000x32, .f32⟩
  | 73 => ⟨S800000x1, .f32⟩
  | 74 => ⟨S800000x32, .f32⟩
  | 75 => ⟨S800000x32, .f32⟩
  | 76 => ⟨S_, .f32⟩
  | 77 => ⟨S50000x32, .f32⟩
  | 78 => ⟨S800000x1, .i32⟩
  | 79 => ⟨S50000x32, .f32⟩
  | 80 => ⟨S50000x1, .f32⟩
  | 81 => ⟨S1x32, .f32⟩
  | 82 => ⟨S50000x32, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x64, .f32⟩
  | 103 => ⟨S800000x64, .i1⟩
  | 104 => ⟨S_, .f32⟩
  | 105 => ⟨S800000x64, .f32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000x1, .f32⟩
  | 115 => ⟨S1x64, .f32⟩
  | 116 => ⟨S50000x64, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x5, .f32⟩

abbrev hbmTy0_1 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x128, .f32⟩
  | 9 => ⟨S800000x128, .i1⟩
  | 10 => ⟨S_, .f32⟩
  | 11 => ⟨S800000x128, .f32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000x1, .f32⟩
  | 21 => ⟨S1x128, .f32⟩
  | 22 => ⟨S50000x128, .f32⟩
  | 23 => ⟨S50000x256, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x256, .f32⟩
  | 43 => ⟨S800000x256, .i1⟩
  | 44 => ⟨S_, .f32⟩
  | 45 => ⟨S800000x256, .f32⟩
  | 46 => ⟨S800000x256, .f32⟩
  | 47 => ⟨S800000x1, .f32⟩
  | 48 => ⟨S800000x256, .f32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x1, .f32⟩
  | 55 => ⟨S1x256, .f32⟩
  | 56 => ⟨S50000x256, .f32⟩
  | 57 => ⟨S50000x1, .i32⟩
  | 58 => ⟨S1x10, .f32⟩
  | 59 => ⟨S512x10, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S2000x5, .f32⟩
  | .local _ .vmem, ⟨1, _⟩ => ⟨S2000x5, .f32⟩
  | .local _ .vmem, ⟨2, _⟩ => ⟨S5x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x1, .f32⟩
  | .local _ .vmem, ⟨10, _⟩ => ⟨S2000x1, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S32x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x1, .f32⟩
  | .local _ .vmem, ⟨52, _⟩ => ⟨S2000x1, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x1, .i32⟩
  | .local _ .vmem, ⟨59, _⟩ => ⟨S2000x1, .i32⟩
  | .local _ .vmem, ⟨60, _⟩ => ⟨S256x10, .f32⟩
  | .local _ .vmem, ⟨61, _⟩ => ⟨S1x10, .f32⟩
  | .local _ .vmem, ⟨62, _⟩ => ⟨S512x10, .f32⟩
  | .local _ .vmem, ⟨63, _⟩ => ⟨S512x256, .f32⟩
  | .local _ .vmem, ⟨64, _⟩ => ⟨S512x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_cst_7 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_cst_8 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_c_1 : Ref sig .tc := ⟨.hbm, 160, rfl⟩
abbrev main_call3_c_2 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_3 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_call3_cst : Ref sig .tc := ⟨.hbm, 172, rfl⟩
abbrev main_call3_v15 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_cst_9 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_scratch0 : Ref sig .tc := ⟨.vmem, 63, rfl⟩
abbrev cc8_scratch1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S512x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x5_S2000x5_0_0 : ∀ a, (![0, 0] : Fin 2 → Nat) a + S2000x5.size a ≤ S2000x5.size a
  h_S2000x5 : 0 < S2000x5.numel
  bitsLt_bf16_f32 : FTy.bits .bf16 < FTy.bits .f32
  inb_S5x32_S5x32_0_0 : ∀ a, (![0, 0] : Fin 2 → Nat) a + S5x32.size a ≤ S5x32.size a
  h_S5x32 : 0 < S5x32.numel
  inb_S2000x32_S2000x32_0_0 : ∀ a, (![0, 0] : Fin 2 → Nat) a + S2000x32.size a ≤ S2000x32.size a
  h_S2000x32 : 0 < S2000x32.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x32_0 : S800000.BroadcastsInDim S800000x32 (![0] : Fin 1 → Fin S800000x32.rank)
  bcast_S_S800000x32 : S_.BroadcastsInDim S800000x32 (![] : Fin 0 → Fin S800000x32.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S50000_S50000x1 : S50000.ShapeCasts S50000x1
  shapeCasts_S32_S1x32 : S32.ShapeCasts S1x32
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S10_S1x10 : S10.ShapeCasts S1x10
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S2000x512_d1_w32 : S2000x512.Iotas .tc 32 [1]
  broadcasts_S2000x1_S2000x512 : S2000x1.Broadcasts S2000x512
  natLt_1_32 : 1 < 32
  broadcasts_S512x1_S512x256 : S512x1.Broadcasts S512x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x5_S5x32_S2000x32_1_0_0_1_n_n_wf : DotDims.WF S2000x5 S5x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S2000x32_S32x64_S2000x64_1_0_0_1_n_n_wf : DotDims.WF S2000x32 S32x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x512_S2000x256_S512x256_0_0_1_1_n_n_wf : DotDims.WF S2000x512 S2000x256 S512x256 [0] [0] [1] [1] [] []
  dot_S2000x512_S2000x1_S512x1_0_0_1_1_n_n_wf : DotDims.WF S2000x512 S2000x1 S512x1 [0] [0] [1] [1] [] []
  dot_S512x256_S256x10_S512x10_1_0_0_1_n_n_wf : DotDims.WF S512x256 S256x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S50000x5.size a
  hwx0_0 : ∀ i : grid0.Coords, EltTy.bits .f32 = 32 ∨ (Rect.block (s := S50000x5) S2000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S50000x32.size a
  hwx0_2 : ∀ i : grid0.Coords, EltTy.bits .f32 = 32 ∨ (Rect.block (s := S50000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S50000x32.size a
  hwx1_4 : ∀ i : grid1.Coords, EltTy.bits .f32 = 32 ∨ (Rect.block (s := S50000x32) S2000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S50000x256.size a
  hwx7_4 : ∀ i : grid7.Coords, EltTy.bits .f32 = 32 ∨ (Rect.block (s := S50000x256) S2000x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .i32 = 32 ∨ (Rect.block (s := S50000x1) S2000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x10.size a ≤ S256x10.size a
  hwx8_2 : ∀ i : grid8.Coords, EltTy.bits .f32 = 32 ∨ (Rect.block (s := S256x10) S256x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x10.size a ≤ S1x10.size a
  hwx8_3 : ∀ i : grid8.Coords, EltTy.bits .f32 = 32 ∨ (Rect.block (s := S1x10) S1x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S512x10.size a ≤ S512x10.size a
  hwx8_4 : ∀ i : grid8.Coords, EltTy.bits .f32 = 32 ∨ (Rect.block (s := S512x10) S512x10.size (cc8_transform_4 i) (hinb8_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x5_S5x32_S2000x32_1_0_0_1_n_n : DotDims S2000x5 S5x32 S2000x32 where
  lhsContracting := [1]
  rhsContracting := [0]
  lhsNonContracting := [0]
  rhsNonContracting := [1]
  lhsBatch := []
  rhsBatch := []
  wf := dot_S2000x5_S5x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x512_S2000x256_S512x256_0_0_1_1_n_n : DotDims S2000x512 S2000x256 S512x256 where
  lhsContracting := [0]
  rhsContracting := [0]
  lhsNonContracting := [1]
  rhsNonContracting := [1]
  lhsBatch := []
  rhsBatch := []
  wf := dot_S2000x512_S2000x256_S512x256_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v60) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v68) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v61) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v70) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v71) S2000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v71) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v72) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg11) S256x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v73) S1x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v74) S512x10.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

class Facts : Prop extends Facts₀ where

variable [Facts]
-- ==== ReferenceIdeal.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x32 : Shape := ⟨2, ![50000, 32]⟩
abbrev S800000x32 : Shape := ⟨2, ![800000, 32]⟩
abbrev S50000x1 : Shape := ⟨2, ![50000, 1]⟩
abbrev S1x32 : Shape := ⟨2, ![1, 32]⟩
abbrev S50000x64 : Shape := ⟨2, ![50000, 64]⟩
abbrev S800000x64 : Shape := ⟨2, ![800000, 64]⟩
abbrev S1x64 : Shape := ⟨2, ![1, 64]⟩
abbrev S50000x128 : Shape := ⟨2, ![50000, 128]⟩
abbrev S800000x128 : Shape := ⟨2, ![800000, 128]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 192
  | .vmem => 0
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S50000x32, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x32, .f32⟩
  | 59 => ⟨S800000x1, .f32⟩
  | 60 => ⟨S800000x32, .f32⟩
  | 61 => ⟨S800000x32, .f32⟩
  | 62 => ⟨S_, .f32⟩
  | 63 => ⟨S50000x32, .f32⟩
  | 64 => ⟨S800000x1, .i32⟩
  | 65 => ⟨S50000x32, .f32⟩
  | 66 => ⟨S50000x1, .f32⟩
  | 67 => ⟨S50000x32, .f32⟩
  | 68 => ⟨S50000x32, .f32⟩
  | 69 => ⟨S50000x32, .f32⟩
  | 70 => ⟨S1x32, .f32⟩
  | 71 => ⟨S50000x32, .f32⟩
  | 72 => ⟨S50000x32, .f32⟩
  | 73 => ⟨S_, .f32⟩
  | 74 => ⟨S50000x32, .f32⟩
  | 75 => ⟨S50000x32, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x1, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S50000x1, .f32⟩
  | 94 => ⟨S50000x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x5, .f32⟩

abbrev hbmTy0_1 (i : Nat) : BufTy := match i % 128 with
  | 0 => ⟨S50000x128, .f32⟩
  | 1 => ⟨S50000x128, .f32⟩
  | 2 => ⟨S50000x256, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x256, .f32⟩
  | 12 => ⟨S800000x1, .f32⟩
  | 13 => ⟨S800000x256, .f32⟩
  | 14 => ⟨S800000x256, .f32⟩
  | 15 => ⟨S_, .f32⟩
  | 16 => ⟨S50000x256, .f32⟩
  | 17 => ⟨S800000x1, .i32⟩
  | 18 => ⟨S50000x256, .f32⟩
  | 19 => ⟨S50000x1, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S_, .f32⟩
  | 30 => ⟨S512x256, .f32⟩
  | 31 => ⟨S50000x1, .i32⟩
  | 32 => ⟨S512x256, .f32⟩
  | 33 => ⟨S_, .f32⟩
  | 34 => ⟨S50000, .f32⟩
  | 35 => ⟨S_, .f32⟩
  | 36 => ⟨S512, .f32⟩
  | 37 => ⟨S50000x1, .i32⟩
  | 38 => ⟨S512, .f32⟩
  | 39 => ⟨S_, .f32⟩
  | 40 => ⟨S512, .f32⟩
  | 41 => ⟨S512, .f32⟩
  | 42 => ⟨S512x1, .f32⟩
  | 43 => ⟨S512x256, .f32⟩
  | 44 => ⟨S512x256, .f32⟩
  | 45 => ⟨S512x10, .f32⟩
  | 46 => ⟨S1x10, .f32⟩
  | 47 => ⟨S512x10, .f32⟩
  | 48 => ⟨S512x10, .f32⟩
  | 49 => ⟨S_, .f32⟩
  | 50 => ⟨S512, .f32⟩
  | 51 => ⟨S_, .f32⟩
  | 52 => ⟨S512, .f32⟩
  | 53 => ⟨S512, .f32⟩
  | 54 => ⟨S512x1, .f32⟩
  | 55 => ⟨S512x10, .f32⟩
  | 56 => ⟨S512x10, .f32⟩
  | 57 => ⟨S512x10, .f32⟩
  | 58 => ⟨S_, .f32⟩
  | 59 => ⟨S512, .f32⟩
  | 60 => ⟨S512x1, .f32⟩
  | 61 => ⟨S512x1, .f32⟩
  | 62 => ⟨S512x10, .f32⟩
  | 63 => ⟨S512x10, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call0_cst : Ref sig .tc := ⟨.hbm, 73, rfl⟩
abbrev main_call0_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_v72 : Ref sig .tc := ⟨.hbm, 103, rfl⟩
abbrev main_c_12 : Ref sig .tc := ⟨.hbm, 104, rfl⟩
abbrev main_v73 : Ref sig .tc := ⟨.hbm, 105, rfl⟩
abbrev main_v74 : Ref sig .tc := ⟨.hbm, 106, rfl⟩
abbrev main_c_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_v94 : Ref sig .tc := ⟨.hbm, 130, rfl⟩
abbrev main_c_15 : Ref sig .tc := ⟨.hbm, 131, rfl⟩
abbrev main_v95 : Ref sig .tc := ⟨.hbm, 132, rfl⟩
abbrev main_v96 : Ref sig .tc := ⟨.hbm, 133, rfl⟩
abbrev main_c_16 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_17 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call3_cst : Ref sig .tc := ⟨.hbm, 154, rfl⟩
abbrev main_call3_v0 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_19 : Ref sig .tc := ⟨.hbm, 161, rfl⟩
abbrev main_v119 : Ref sig .tc := ⟨.hbm, 162, rfl⟩
abbrev main_cst_20 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_21 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_call4_cst : Ref sig .tc := ⟨.hbm, 177, rfl⟩
abbrev main_call4_v0 : Ref sig .tc := ⟨.hbm, 178, rfl⟩
abbrev main_call4_cst_0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_cst_1 : Ref sig .tc := ⟨.hbm, 186, rfl⟩
abbrev main_call4_v7 : Ref sig .tc := ⟨.hbm, 187, rfl⟩
abbrev main_call4_v8 : Ref sig .tc := ⟨.hbm, 188, rfl⟩
abbrev main_call4_v9 : Ref sig .tc := ⟨.hbm, 189, rfl⟩
abbrev main_call4_v10 : Ref sig .tc := ⟨.hbm, 190, rfl⟩
abbrev main_v132 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x5_S5x32_S50000x32_1_0_0_1_n_n_wf : DotDims.WF S50000x5 S5x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x10_S512x10_1_0_0_1_n_n_wf : DotDims.WF S512x256 S256x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x5_S5x32_S50000x32_1_0_0_1_n_n : DotDims S50000x5 S5x32 S50000x32 where
  lhsContracting := [1]
  rhsContracting := [0]
  lhsNonContracting := [0]
  rhsNonContracting := [1]
  lhsBatch := []
  rhsBatch := []
  wf := dot_S50000x5_S5x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

class Facts : Prop extends Facts₀ where

variable [Facts]
-- ==== Proof.Kernel.Reg0.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x5 := Rect.unit (s := S2000x5) ![0, 0] S2000x5.size inb_S2000x5_S2000x5_0_0
abbrev r0_1 : Rect S5x32 := Rect.unit (s := S5x32) ![0, 0] S5x32.size inb_S5x32_S5x32_0_0
abbrev r0_2 : Rect S2000x32 := Rect.unit (s := S2000x32) ![0, 0] S2000x32.size inb_S2000x32_S2000x32_0_0

def out0_2 (x0 : Vec F S2000x5 .f32) (x1 : Vec F S5x32 .f32) : Vec F S2000x32 .f32 :=
  View.canon [⟨r0_2, k0_pay1 (View.ld x0 r0_0) (View.ld x1 r0_1)⟩]

theorem cover0_2 (p0 : Vec F S2000x32 .f32) (y : S2000x32.Idx) :
    ∃ pc ∈ ([⟨r0_2, p0⟩] : List (View.Piece (Elt F) S2000x32 .f32)), y ∈ pc.1.set :=
  View.cover_of_tiled [⟨r0_2, p0⟩] S2000x32.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  change _ ⊢ wp _ _ _ (bodyAt0 t) _
  simp only [bodyAt0, before0_0, before0_1, after0_0, after0_1, after0_2, cc0__transform_kernel_eq_skeleton]
  rw [show (dat0 V c).Φ t.succ = (dat0 V c).Φ t.castSucc from rfl,
    show (dat0 V c).owesAt () t.succ = (dat0 V c).owesAt () t.castSucc from rfl]
  generalize iblk0 V c 0 t = x0, iblk0 V c 1 t = x1
  unfold cc0__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Hand

end
-- ==== Proof.Kernel.Reg1.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S2000x1 := Rect.unit (s := S2000x1) ![0, 0] S2000x1.size inb_S2000x1_S2000x1_0_0
abbrev r1_2 : Rect S1x32 := Rect.unit (s := S1x32) ![0, 0] S1x32.size inb_S1x32_S1x32_0_0

def out1_4 (x0 : Vec F S2000x32 .f32) (x1 : Vec F S2000x32 .f32) (x2 : Vec F S2000x1 .f32) (x3 : Vec F S1x32 .f32) : Vec F S2000x32 .f32 :=
  View.canon [⟨r1_0, k1_pay1 (View.ld x0 r1_0) (View.ld x1 r1_0) (View.ld x2 r1_1) (View.ld x3 r1_2)⟩]

theorem cover1_4 (p0 : Vec F S2000x32 .f32) (y : S2000x32.Idx) :
    ∃ pc ∈ ([⟨r1_0, p0⟩] : List (View.Piece (Elt F) S2000x32 .f32)), y ∈ pc.1.set :=
  View.cover_of_tiled [⟨r1_0, p0⟩] S2000x32.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  change _ ⊢ wp _ _ _ (bodyAt1 t) _
  simp only [bodyAt1, before1_0, before1_1, before1_2, before1_3, after1_0, after1_1, after1_2, after1_3, after1_4, cc1__combine_kernel_eq_skeleton]
  rw [show (dat1 V c).Φ t.succ = (dat1 V c).Φ t.castSucc from rfl,
    show (dat1 V c).owesAt () t.succ = (dat1 V c).owesAt () t.castSucc from rfl]
  generalize iblk1 V c 0 t = x0, iblk1 V c 1 t = x1, iblk1 V c 2 t = x2, iblk1 V c 3 t = x3
  unfold cc1__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end Cert.Kernel.Hand

end
-- ==== Proof.Kernel.Reg2.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x32 := Rect.unit (s := S2000x32) ![0, 0] S2000x32.size inb_S2000x32_S2000x32_0_0
abbrev r2_1 : Rect S32x64 := Rect.unit (s := S32x64) ![0, 0] S32x64.size inb_S32x64_S32x64_0_0
abbrev r2_2 : Rect S2000x64 := Rect.unit (s := S2000x64) ![0, 0] S2000x64.size inb_S2000x64_S2000x64_0_0

def out2_2 (x0 : Vec F S2000x32 .f32) (x1 : Vec F S32x64 .f32) : Vec F S2000x64 .f32 :=
  View.canon [⟨r2_2, k2_pay1 (View.ld x0 r2_0) (View.ld x1 r2_1)⟩]

theorem cover2_2 (p0 : Vec F S2000x64 .f32) (y : S2000x64.Idx) :
    ∃ pc ∈ ([⟨r2_2, p0⟩] : List (View.Piece (Elt F) S2000x64 .f32)), y ∈ pc.1.set :=
  View.cover_of_tiled [⟨r2_2, p0⟩] S2000x64.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  change _ ⊢ wp _ _ _ (bodyAt2 t) _
  simp only [bodyAt2, before2_0, before2_1, after2_0, after2_1, after2_2, cc2__transform_kernel_eq_skeleton]
  rw [show (dat2 V c).Φ t.succ = (dat2 V c).Φ t.castSucc from rfl,
    show (dat2 V c).owesAt () t.succ = (dat2 V c).owesAt () t.castSucc from rfl]
  generalize iblk2 V c 0 t = x0, iblk2 V c 1 t = x1
  unfold cc2__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.Kernel.Hand

end
-- ==== Proof.Kernel.Reg3.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_4 (x0 : Vec F S2000x64 .f32) (x1 : Vec F S2000x64 .f32) (x2 : Vec F S2000x1 .f32) (x3 : Vec F S1x64 .f32) : Vec F S2000x64 .f32 :=
  View.canon [⟨r3_0, k3_pay1 (View.ld x0 r3_0) (View.ld x1 r3_0) (View.ld x2 r3_1) (View.ld x3 r3_2)⟩]

theorem cover3_4 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  change _ ⊢ wp _ _ _ (bodyAt3 t) _
  simp only [bodyAt3, before3_0, before3_1, before3_2, before3_3, after3_0, after3_1, after3_2, after3_3, after3_4, cc3__combine_kernel_eq_skeleton]
  rw [show (dat3 V c).Φ t.succ = (dat3 V c).Φ t.castSucc from rfl,
    show (dat3 V c).owesAt () t.succ = (dat3 V c).owesAt () t.castSucc from rfl]
  generalize iblk3 V c 0 t = x0, iblk3 V c 1 t = x1, iblk3 V c 2 t = x2, iblk3 V c 3 t = x3
  unfold cc3__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end Cert.Kernel.Hand

end
-- ==== Proof.Kernel.Reg4.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x64 := Rect.unit (s := S2000x64) ![0, 0] S2000x64.size inb_S2000x64_S2000x64_0_0
abbrev r4_1 : Rect S64x128 := Rect.unit (s := S64x128) ![0, 0] S64x128.size inb_S64x128_S64x128_0_0
abbrev r4_2 : Rect S2000x128 := Rect.unit (s := S2000x128) ![0, 0] S2000x128.size inb_S2000x128_S2000x128_0_0

def out4_2 (x0 : Vec F S2000x64 .f32) (x1 : Vec F S64x128 .f32) : Vec F S2000x128 .f32 :=
  View.canon [⟨r4_2, k4_pay1 (View.ld x0 r4_0) (View.ld x1 r4_1)⟩]

theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  change _ ⊢ wp _ _ _ (bodyAt4 t) _
  simp only [bodyAt4, before4_0, before4_1, after4_0, after4_1, after4_2, cc4__transform_kernel_eq_skeleton]
  rw [show (dat4 V c).Φ t.succ = (dat4 V c).Φ t.castSucc from rfl,
    show (dat4 V c).owesAt () t.succ = (dat4 V c).owesAt () t.castSucc from rfl]
  generalize iblk4 V c 0 t = x0, iblk4 V c 1 t = x1
  unfold cc4__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

end Cert.Kernel.Hand

end
-- ==== Proof.Kernel.Reg5.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S2000x1 := Rect.unit (s := S2000x1) ![0, 0] S2000x1.size inb_S2000x1_S2000x1_0_0
abbrev r5_2 : Rect S1x128 := Rect.unit (s := S1x128) ![0, 0] S1x128.size inb_S1x128_S1x128_0_0

def out5_4 (x0 : Vec F S2000x128 .f32) (x1 : Vec F S2000x128 .f32) (x2 : Vec F S2000x1 .f32) (x3 : Vec F S1x128 .f32) : Vec F S2000x128 .f32 :=
  View.canon [⟨r5_0, k5_pay1 (View.ld x0 r5_0) (View.ld x1 r5_0) (View.ld x2 r5_1) (View.ld x3 r5_2)⟩]

theorem cover5_4 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  change _ ⊢ wp _ _ _ (bodyAt5 t) _
  simp only [bodyAt5, before5_0, before5_1, before5_2, before5_3, after5_0, after5_1, after5_2, after5_3, after5_4, cc5__combine_kernel_eq_skeleton]
  rw [show (dat5 V c).Φ t.succ = (dat5 V c).Φ t.castSucc from rfl,
    show (dat5 V c).owesAt () t.succ = (dat5 V c).owesAt () t.castSucc from rfl]
  generalize iblk5 V c 0 t = x0, iblk5 V c 1 t = x1, iblk5 V c 2 t = x2, iblk5 V c 3 t = x3
  unfold cc5__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

end Cert.Kernel.Hand

end
-- ==== Proof.Kernel.Reg6.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S128x256 := Rect.unit (s := S128x256) ![0, 0] S128x256.size inb_S128x256_S128x256_0_0
abbrev r6_2 : Rect S2000x256 := Rect.unit (s := S2000x256) ![0, 0] S2000x256.size inb_S2000x256_S2000x256_0_0

def out6_2 (x0 : Vec F S2000x128 .f32) (x1 : Vec F S128x256 .f32) : Vec F S2000x256 .f32 :=
  View.canon [⟨r6_2, k6_pay1 (View.ld x0 r6_0) (View.ld x1 r6_1)⟩]

theorem cover6_2 (p0 : Vec F S2000x256 .f32) (y : S2000x256.Idx) :
    ∃ pc ∈ ([⟨r6_2, p0⟩] : List (View.Piece (Elt F) S2000x256 .f32)), y ∈ pc.1.set :=
  View.cover_of_tiled [⟨r6_2, p0⟩] S2000x256.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  change _ ⊢ wp _ _ _ (bodyAt6 t) _
  simp only [bodyAt6, before6_0, before6_1, after6_0, after6_1, after6_2, cc6__transform_kernel_eq_skeleton]
  rw [show (dat6 V c).Φ t.succ = (dat6 V c).Φ t.castSucc from rfl,
    show (dat6 V c).owesAt () t.succ = (dat6 V c).owesAt () t.castSucc from rfl]
  generalize iblk6 V c 0 t = x0, iblk6 V c 1 t = x1
  unfold cc6__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

end Cert.Kernel.Hand

end
-- ==== Proof.Kernel.Reg7.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S2000x1 := Rect.unit (s := S2000x1) ![0, 0] S2000x1.size inb_S2000x1_S2000x1_0_0
abbrev r7_2 : Rect S1x256 := Rect.unit (s := S1x256) ![0, 0] S1x256.size inb_S1x256_S1x256_0_0

def out7_4 (x0 : Vec F S2000x256 .f32) (x1 : Vec F S2000x256 .f32) (x2 : Vec F S2000x1 .f32) (x3 : Vec F S1x256 .f32) : Vec F S2000x256 .f32 :=
  View.canon [⟨r7_0, k7_pay1 (View.ld x0 r7_0) (View.ld x1 r7_0) (View.ld x2 r7_1) (View.ld x3 r7_2)⟩]

theorem cover7_4 (p0 : Vec F S2000x256 .f32) (y : S2000x256.Idx) :
    ∃ pc ∈ ([⟨r7_0, p0⟩] : List (View.Piece (Elt F) S2000x256 .f32)), y ∈ pc.1.set :=
  View.cover_of_tiled [⟨r7_0, p0⟩] S2000x256.size (by rfl) y

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  change _ ⊢ wp _ _ _ (bodyAt7 t) _
  simp only [bodyAt7, before7_0, before7_1, before7_2, before7_3, after7_0, after7_1, after7_2, after7_3, after7_4, cc7__combine_kernel_eq_skeleton]
  rw [show (dat7 V c).Φ t.succ = (dat7 V c).Φ t.castSucc from rfl,
    show (dat7 V c).owesAt () t.succ = (dat7 V c).owesAt () t.castSucc from rfl]
  generalize iblk7 V c 0 t = x0, iblk7 V c 1 t = x1, iblk7 V c 2 t = x2, iblk7 V c 3 t = x3
  unfold cc7__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

end Cert.Kernel.Hand

end
-- ==== Proof.Kernel.Reg8.lean ====
import proofs.«427753_j34041910788666_1_alg».proof.Proof.Gen.Kernel.Launch
import proofs.«427753_j34041910788666_1_alg».proof.Proof.Gen.Kernel.Skeleton
import proofs.«427753_j34041910788666_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond8_0 (i : grid8.Coords) : Prop := (Scalar.cmpi .ne (Scalar.extui (Scalar.cmpi .eq (BitVec.ofNat 32 (i 0).val) 0#32)) 0#32) = 1#1
abbrev cond8_1 (i : grid8.Coords) : Prop := k8_cond2 i = 1#1

/-- Over the 25 grid points the body's first test holds at point 0 only and its second at point 24 only. -/
theorem hcond8_0 : ∀ t : Fin cfg8.N, cond8_0 (grid8.coords t) ↔ t.val = 0 := (by decide +kernel : ∀ t : Fin grid8.N, _)
theorem hcond8_1 : ∀ t : Fin cfg8.N, cond8_1 (grid8.coords t) ↔ t.val = 24 := (by decide +kernel : ∀ t : Fin grid8.N, _)

theorem idleAt8_4 : ∀ t : Fin cfg8.N, t.val ≠ 24 → cfg8.idle 4 (grid8.coords t) = true := by decide +kernel
theorem noFlush8_4 : ∀ t : Fin cfg8.N, t.val ≠ 24 → (cfg8.win 4).flush t = false := by decide +kernel
theorem liveAt8_4 : ∀ t : Fin cfg8.N, t.val = 24 → cfg8.idle 4 (grid8.coords t) = false := by decide +kernel

abbrev scM8_0 : Memref sig .tc .vmem S512x256 .f32 := Memref.whole cc8_scratch0
abbrev scM8_1 : Memref sig .tc .vmem S512x1 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

/-- The region's invariant with the two accumulators split off from the other buffers it holds, each owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

theorem hz8 : (![0, 0] : Fin 2 → Nat) = fun _ => 0 := funext fun a => by fin_cases a <;> rfl

/-- The last store covers the whole shape, so what was written before it does not matter. -/
theorem read_writes_last_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons.mpr (.inl rfl), View.mem_set_unit_zero h inb y⟩).trans
    (View.canon_cons_unit_zero h inb w L)

set_option maxHeartbeats 1000000 in
/-- The body on whole buffers, in every case of its two tests: where the first holds both accumulators restart from zero (b0, b1 name what they restart from); one block's per-graph sums and counts are added; where the second holds the classifier's log-softmax on the new accumulators is stored into the output. -/
theorem run8 (c : Dev nD) (E : Set ℕ) (i : grid8.Coords)
    (arg1 : Memref sig .tc .vmem S2000x256 .f32) (harg1 : arg1.IsWhole) (arg2 : Memref sig .tc .vmem S2000x1 .i32) (harg2 : arg2.IsWhole)
    (arg3 : Memref sig .tc .vmem S256x10 .f32) (harg3 : arg3.IsWhole) (arg4 : Memref sig .tc .vmem S1x10 .f32) (harg4 : arg4.IsWhole)
    (arg5 : Memref sig .tc .vmem S512x10 .f32) (harg5 : arg5.IsWhole) (arg6 : Memref sig .tc .vmem S512x256 .f32) (harg6 : arg6.IsWhole)
    (arg7 : Memref sig .tc .vmem S512x1 .f32) (harg7 : arg7.IsWhole)
    (x0 : Vec F S2000x256 .f32) (x1 : Vec F S2000x1 .i32) (x2 : Vec F S256x10 .f32) (x3 : Vec F S1x10 .f32) (x4 : Vec F S512x10 .f32)
    (a0 b0 : Vec F S512x256 .f32) (a1 b1 : Vec F S512x1 .f32)
    (h0 : (if cond8_0 i then k8_pay1 else a0) = b0) (h1 : (if cond8_0 i then k8_pay2 else a1) = b1)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if cond8_1 i then k8_pay6 (k8_pay4 x0 x1 b0) (k8_pay5 x1 b1) x2 x3 else x4)
            ∗ owns (c : Thread nD τ) arg6 fullShare (k8_pay4 x0 x1 b0) ∗ owns (c : Thread nD τ) arg7 fullShare (k8_pay5 x1 b1)) -∗ K ⟨⟩))
      ⊢ wp frame (wpE (defs₀ (F := F)) Variants.none c none) E (cc8__pool_classify_kernel i arg1 harg1 arg2 harg2 arg3 harg3 arg4 harg4 arg5 harg5 arg6 harg6 arg7 harg7) K := by
  subst h0 h1
  by_cases hc0 : cond8_0 i <;> by_cases hc1 : cond8_1 i
  all_goals
    first | rw [if_pos hc0, if_pos hc0] | rw [if_neg hc0, if_neg hc0]
    first | rw [if_pos hc1] | rw [if_neg hc1]
    simp only [cc8__pool_classify_kernel_eq_skeleton]; unfold cc8__pool_classify_kernel_skel owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
    obtain rfl := harg1.eq_unread e0; obtain rfl := harg2.eq_unread e1; obtain rfl := harg3.eq_unread e2; obtain rfl := harg4.eq_unread e3
    obtain rfl := harg5.eq_unread e4; obtain rfl := harg6.eq_unread e5; obtain rfl := harg7.eq_unread e6
    sl_exec (disch := first | exact hc0 | exact hc1)
    sl_step
    iapply Hk
    isplitl [H0]; rotate_left; isplitl [H1]; rotate_left; isplitl [H2]; rotate_left; isplitl [H3]; rotate_left
    isplitl [H4]; rotate_left; isplitl [H5]; rotate_left
    all_goals
      iexists _; isplitr; swap; · iassumption
      ipureintro
      first
      | sl_unfold_run_names
        rw [read_writes_last_whole _ _ hz8]
        simp only [View.readAt_eq_ld, harg1.read_unread, harg2.read_unread, harg3.read_unread, harg4.read_unread, harg6.read_unread, harg7.read_unread,
          View.ld_unit_zero (S := S2000x256) hz8, View.ld_unit_zero (S := S2000x1) hz8, View.ld_unit_zero (S := S256x10) hz8, View.ld_unit_zero (S := S1x10) hz8,
          View.ld_unit_zero (S := S512x256) hz8, View.ld_unit_zero (S := S512x1) hz8, View.readCov_cons_toLoadRect]
      | exact Memref.IsWhole.read_unread _ _

variable (V : (c : Dev nD) → (b : Ref sig .tc) → Buf (Elt F) ((c : Thread nD τ).loc b))

/-- Block t of window w's array, at the contents V. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev xblk8 (c : Dev nD) (t : Fin cfg8.N) : Vec F S2000x256 .f32 := iblk8 V c 0 t
abbrev gblk8 (c : Dev nD) (t : Fin cfg8.N) : Vec F S2000x1 .i32 := iblk8 V c 1 t
abbrev wblk8 (c : Dev nD) (t : Fin cfg8.N) : Vec F S256x10 .f32 := iblk8 V c 2 t
abbrev bblk8 (c : Dev nD) (t : Fin cfg8.N) : Vec F S1x10 .f32 := iblk8 V c 3 t

/-- The sum and the count accumulator before each point: zero, then one block's sums and counts more at each point. -/
def sum8 (c : Dev nD) (s : Fin (cfg8.N + 1)) : Vec F S512x256 .f32 :=
  Fin.induction (motive := fun _ => Vec F S512x256 .f32) k8_pay1 (fun t a => k8_pay4 (xblk8 V c t) (gblk8 V c t) a) s
def cnt8 (c : Dev nD) (s : Fin (cfg8.N + 1)) : Vec F S512x1 .f32 :=
  Fin.induction (motive := fun _ => Vec F S512x1 .f32) k8_pay2 (fun t a => k8_pay5 (gblk8 V c t) a) s

theorem sum8_succ (c : Dev nD) (t : Fin cfg8.N) : sum8 V c t.succ = k8_pay4 (xblk8 V c t) (gblk8 V c t) (sum8 V c t.castSucc) :=
  Fin.induction_succ _ _ t
theorem cnt8_succ (c : Dev nD) (t : Fin cfg8.N) : cnt8 V c t.succ = k8_pay5 (gblk8 V c t) (cnt8 V c t.castSucc) :=
  Fin.induction_succ _ _ t

/-- What the body stores in the output block at point t (it does so at the last point only). -/
def out8 (c : Dev nD) (t : Fin cfg8.N) : Vec F S512x10 .f32 :=
  k8_pay6 (k8_pay4 (xblk8 V c t) (gblk8 V c t) (sum8 V c t.castSucc)) (k8_pay5 (gblk8 V c t) (cnt8 V c t.castSucc)) (wblk8 V c t) (bblk8 V c t)

/-- The invariant before a point: at entry the region's own; later the two accumulators, owned at the sums and counts so far, beside the rest. -/
def Phi8 (c : Dev nD) (s : Fin (cfg8.N + 1)) : sProp 𝕄 :=
  if s = 0 then Pipeline.ΦA spec8 c
  else iprop(owns (c : Thread nD τ) scM8_0 fullShare (sum8 V c s) ∗ owns (c : Thread nD τ) scM8_1 fullShare (cnt8 V c s) ∗ rest8 c ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 V c t
  Φ := Phi8 V c
  q _ := fullShare
  owed _ := 0

theorem A_eq8 (c : Dev nD) (w : Fin cfg8.W) : (dat8 V c).A w = V c (Pipeline.arrRef spec8 w) := rfl

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d

/-- Before any point the invariant holds both accumulators: at the first point at anything, which the body's first test then discards; later at what the points before left. -/
theorem Phi8_open (c : Dev nD) (t : Fin cfg8.N) :
    Phi8 V c t.castSucc ⊢ (iprop(∃ a0 a1, ⌜(if cond8_0 (grid8.coords t) then k8_pay1 else a0) = sum8 V c t.castSucc
        ∧ (if cond8_0 (grid8.coords t) then k8_pay2 else a1) = cnt8 V c t.castSucc⌝
      ∗ owns (c : Thread nD τ) scM8_0 fullShare a0 ∗ owns (c : Thread nD τ) scM8_1 fullShare a1 ∗ rest8 c ∗ (∃ r, prngReg c r)) : sProp 𝕄) := by
  unfold Phi8
  by_cases hz : t.val = 0
  · have h0 : t.castSucc = 0 := Fin.ext hz
    rw [if_pos h0, PhiA8_eq, h0]
    iintro ⟨⟨⟨⟨%a0, H0⟩, ⟨%a1, H1⟩⟩, Hr⟩, Hg⟩
    iexists a0; iexists a1
    isplitr; · ipureintro; exact ⟨if_pos ((hcond8_0 t).mpr hz), if_pos ((hcond8_0 t).mpr hz)⟩
    iframe
  · rw [if_neg (fun h => hz (Fin.val_eq_of_eq h))]
    iintro H
    iexists _; iexists _
    isplitr; · ipureintro; exact ⟨if_neg (mt (hcond8_0 t).mp hz), if_neg (mt (hcond8_0 t).mp hz)⟩
    iexact H

/-- Where the second test holds the output block is the body's store, elsewhere it is unchanged: the two cases of what is asked of the output window. -/
theorem leaves8_4 (c : Dev nD) (t : Fin cfg8.N) (d) :
    owns (c : Thread nD τ) (st8_4 t) fullShare (if cond8_1 (grid8.coords t) then out8 V c t else (dat8 V c).before 4 t d) ⊢ (dat8 V c).leavesExact 4 t := by
  by_cases h : t.val = 24
  · rw [if_pos ((hcond8_1 t).mpr h)]; unfold Dat.leavesExact; rw [liveAt8_4 t h]; exact .rfl
  · rw [if_neg (mt (hcond8_1 t).mp h), Dat.leavesExact_idle (dat8 V c) 4 t (idleAt8_4 t h) (noFlush8_4 t h)]
    iintro H; iexists d; iexact H

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.castSucc
    ∗ owns (c : Thread nD τ) (st8_0 t) fullShare (iblk8 V c 0 t)
    ∗ owns (c : Thread nD τ) (st8_1 t) fullShare (iblk8 V c 1 t)
    ∗ owns (c : Thread nD τ) (st8_2 t) fullShare (iblk8 V c 2 t)
    ∗ owns (c : Thread nD τ) (st8_3 t) fullShare (iblk8 V c 3 t)
    ∗ (dat8 V c).leavesExact 4 t)

set_option maxHeartbeats 4800000 in
/-- The body at any point: the invariant's accumulators go through the run, which hands them back one block further, and the inputs come back untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = Phi8 V c t.succ from rfl, show (dat8 V c).Φ t.castSucc = Phi8 V c t.castSucc from rfl]
  refine (sep_mono_left (Phi8_open V c t)).trans ?_
  unfold Phi8; rw [if_neg (Fin.succ_ne_zero t), sum8_succ, cnt8_succ]
  iintro ⟨⟨%a0, %a1, %ha, HS0, HS1, Hrest, Hg⟩, Ho, ⟨%d0, H0⟩, ⟨%d1, H1⟩, ⟨%d2, H2⟩, ⟨%d3, H3⟩, ⟨%d4, H4⟩⟩
  iapply (run8 c Set.univ (grid8.coords t) _ _ _ _ _ _ _ _ _ _ _ _ _ _
    (xblk8 V c t) (gblk8 V c t) (wblk8 V c t) (bblk8 V c t) _ a0 _ a1 _ ha.1 ha.2 _)
  iframe H0 H1 H2 H3 H4 HS0 HS1
  iintro ⟨H0, H1, H2, H3, H4, HS0, HS1⟩
  iframe Ho H0 H1 H2 H3 HS0 HS1 Hrest Hg
  iapply (leaves8_4 V c t d4)
  iexact H4

theorem body_obligation8 (c : Dev nD) : BodyObligation (dat8 (F := F) V c) (defs₀ (F := F)) Variants.none () Set.univ := fun t => by
  rw [bigSep_W8, bigSep_W8]
  exact sound_body8 V c t

theorem Phi8_first (c : Dev nD) : (dat8 (F := F) V c).Φ 0 = Pipeline.ΦA spec8 c := (if_pos rfl : Phi8 V c 0 = _)

/-- At the region's exit the accumulators, at whatever they hold, rejoin the other buffers of the invariant. -/
theorem Phi8_last (c : Dev nD) : (dat8 (F := F) V c).Φ (Fin.last _) ⊢ (Pipeline.ΦA spec8 c : sProp 𝕄) := by
  rw [show (dat8 V c).Φ (Fin.last _) = Phi8 V c (Fin.last _) from rfl]; unfold Phi8
  rw [if_neg (by decide +kernel), PhiA8_eq]
  iintro ⟨H0, H1, Hr, Hg⟩
  iframe Hr Hg
  isplitl [H0]; · iexists _; iexact H0
  iexists _; iexact H1

end Cert.Kernel.Hand

end
-- ==== Proof.Kernel.Fold.lean ====
import proofs.«427753_j34041910788666_1_alg».proof.Proof.Kernel.Reg0
import proofs.«427753_j34041910788666_1_alg».proof.Proof.Kernel.Reg1
import proofs.«427753_j34041910788666_1_alg».proof.Proof.Kernel.Reg2
import proofs.«427753_j34041910788666_1_alg».proof.Proof.Kernel.Reg3
import proofs.«427753_j34041910788666_1_alg».proof.Proof.Kernel.Reg4
import proofs.«427753_j34041910788666_1_alg».proof.Proof.Kernel.Reg5
import proofs.«427753_j34041910788666_1_alg».proof.Proof.Kernel.Reg6
import proofs.«427753_j34041910788666_1_alg».proof.Proof.Kernel.Reg7
import proofs.«427753_j34041910788666_1_alg».proof.Proof.Kernel.Reg8
import proofs.«427753_j34041910788666_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe
open Idealize.ShloMosaic.Pipeline (Dat Cfg)
open Cert.Kernel Cert.Kernel.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Thread nD τ).1, b)

abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

abbrev W4 : Dev nD → Valuation τ sig (Elt F) := fun c => StableHlo.after hostOps1_1 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

abbrev W8 : Dev nD → Valuation τ sig (Elt F) := fun c => StableHlo.after hostOps3_1 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) :=
  Pipeline.withArrays_of_ne spec3 c _ _ b hb

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev V10 : (c : Dev nD) → (b : Ref sig .tc) → Buf (Elt F) ((c : Thread nD τ).loc b) := fun c b => W10 m ρ c b

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

abbrev W12 : Dev nD → Valuation τ sig (Elt F) := fun c => StableHlo.after hostOps5_1 (W11 m ρ c)

abbrev V12 : (c : Dev nD) → (b : Ref sig .tc) → Buf (Elt F) ((c : Thread nD τ).loc b) := fun c b => W12 m ρ c b

def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N :=
  Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) :=
  Pipeline.withArrays_of_ne spec5 c _ _ b hb

abbrev V13 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb

abbrev V14 : (c : Dev nD) → (b : Ref sig .tc) → Buf (Elt F) ((c : Thread nD τ).loc b) := fun c b => W14 m ρ c b

abbrev W15 : Dev nD → Valuation τ sig (Elt F) := fun c => StableHlo.after hostOps7 (W14 m ρ c)

abbrev V15 : (c : Dev nD) → (b : Ref sig .tc) → Buf (Elt F) ((c : Thread nD τ).loc b) := fun c b => W15 m ρ c b

abbrev W16 : Dev nD → Valuation τ sig (Elt F) := fun c => StableHlo.after hostOps7_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec7 c (W16 m ρ c) fun w => (dat7 (V16 m ρ) c).arrAt w cfg7.N
theorem W17_arr (c : Dev nD) (w : Fin cfg7.W) :
    W17 m ρ c (Proc.devRef .tc (Pipeline.arrRef spec7 w)) = (dat7 (V16 m ρ) c).arrAt w cfg7.N :=
  Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) :=
  Pipeline.withArrays_of_ne spec7 c _ _ b hb

abbrev V17 : (c : Dev nD) → (b : Ref sig .tc) → Buf (Elt F) ((c : Thread nD τ).loc b) := fun c b => W17 m ρ c b

abbrev W18 : Dev nD → Valuation τ sig (Elt F) := fun c => StableHlo.after hostOps8 (W17 m ρ c)

abbrev V18 : (c : Dev nD) → (b : Ref sig .tc) → Buf (Elt F) ((c : Thread nD τ).loc b) := fun c b => W18 m ρ c b

def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N :=
  Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) :=
  Pipeline.withArrays_of_ne spec8 c _ _ b hb

abbrev V19 : (c : Dev nD) → (b : Ref sig .tc) → Buf (Elt F) ((c : Thread nD τ).loc b) := fun c b => W19 m ρ c b

/-- `b` is not the array of an output window of `cfg`. -/
abbrev NotOut (cfg : Cfg sig Λ₀) (b : Ref sig .tc) : Prop :=
  ∀ w, Pipeline.arrRef cfg.spec w = b → (cfg.win w).isOut = false

/-- A region's exit contents agree with its entry contents at such a buffer: an input window's array is the same at every point. -/
theorem keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc) (hb : NotOut cfg b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hb w rfl), hA]
  · exact Pipeline.withArrays_of_ne _ c V _ b fun w e => h ⟨w, e⟩

/-- A buffer that no host stretch writes and no region has as an output ends holding what it was launched with. -/
theorem W19_kept (c : Dev nD) (b : Ref sig .tc)
    (h : b ∉ hostOps0_W ∧ NotOut cfg0 b ∧ b ∉ hostOps1_W ∧ b ∉ hostOps1_1_W ∧ NotOut cfg1 b ∧ NotOut cfg2 b ∧ b ∉ hostOps3_W
      ∧ b ∉ hostOps3_1_W ∧ NotOut cfg3 b ∧ NotOut cfg4 b ∧ b ∉ hostOps5_W ∧ b ∉ hostOps5_1_W ∧ NotOut cfg5 b ∧ NotOut cfg6 b
      ∧ b ∉ hostOps7_W ∧ b ∉ hostOps7_1_W ∧ NotOut cfg7 b ∧ b ∉ hostOps8_W ∧ NotOut cfg8 b) :
    W19 m ρ c (Proc.devRef .tc b) = m ((c : Thread nD τ).loc b) := by
  obtain ⟨h0, r0, h1, h1', r1, r2, h3, h3', r3, r4, h5, h5', r5, r6, h7, h7', r7, h8, r8⟩ := h
  exact (keep (dat8 (V18 m ρ) c) launch8.win.arr_inj (W18 m ρ c) (A_eq8 (V18 m ρ) c) b r8).trans <|
    (StableHlo.after_of_writes_sub hostOps8 _ hostOps8_writes h8).trans <|
    (keep (dat7 (V16 m ρ) c) launch7.win.arr_inj (W16 m ρ c) (A_eq7 (V16 m ρ) c) b r7).trans <|
    (StableHlo.after_of_writes_sub hostOps7_1 _ hostOps7_1_writes h7').trans <|
    (StableHlo.after_of_writes_sub hostOps7 _ hostOps7_writes h7).trans <|
    (keep (dat6 (V13 m ρ) c) launch6.win.arr_inj (W13 m ρ c) (A_eq6 (V13 m ρ) c) b r6).trans <|
    (keep (dat5 (V12 m ρ) c) launch5.win.arr_inj (W12 m ρ c) (A_eq5 (V12 m ρ) c) b r5).trans <|
    (StableHlo.after_of_writes_sub hostOps5_1 _ hostOps5_1_writes h5').trans <|
    (StableHlo.after_of_writes_sub hostOps5 _ hostOps5_writes h5).trans <|
    (keep (dat4 (V9 m ρ) c) launch4.win.arr_inj (W9 m ρ c) (A_eq4 (V9 m ρ) c) b r4).trans <|
    (keep (dat3 (V8 m ρ) c) launch3.win.arr_inj (W8 m ρ c) (A_eq3 (V8 m ρ) c) b r3).trans <|
    (StableHlo.after_of_writes_sub hostOps3_1 _ hostOps3_1_writes h3').trans <|
    (StableHlo.after_of_writes_sub hostOps3 _ hostOps3_writes h3).trans <|
    (keep (dat2 (V5 m ρ) c) launch2.win.arr_inj (W5 m ρ c) (A_eq2 (V5 m ρ) c) b r2).trans <|
    (keep (dat1 (V4 m ρ) c) launch1.win.arr_inj (W4 m ρ c) (A_eq1 (V4 m ρ) c) b r1).trans <|
    (StableHlo.after_of_writes_sub hostOps1_1 _ hostOps1_1_writes h1').trans <|
    (StableHlo.after_of_writes_sub hostOps1 _ hostOps1_writes h1).trans <|
    (keep (dat0 (V1 m ρ) c) launch0.win.arr_inj (W1 m ρ c) (A_eq0 (V1 m ρ) c) b r0).trans <|
    (StableHlo.after_of_writes_sub hostOps0 _ hostOps0_writes h0)

end Cert.Kernel.Hand

end
-- ==== Proof.Kernel.Run.lean ====
import proofs.«427753_j34041910788666_1_alg».proof.Proof.Kernel.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V5 m ρ) c
  | ⟨3, _⟩ => fun c => dat3 (V8 m ρ) c
  | ⟨4, _⟩ => fun c => dat4 (V9 m ρ) c
  | ⟨5, _⟩ => fun c => dat5 (V12 m ρ) c
  | ⟨6, _⟩ => fun c => dat6 (V13 m ρ) c
  | ⟨7, _⟩ => fun c => dat7 (V16 m ρ) c
  | ⟨8, _⟩ => fun c => dat8 (V18 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

set_option backward.isDefEq.respectTransparency.types false in
/-- A kernel region as an item of the run between the boundary contents `Wi` and `Wo`; the nine regions differ only in these arguments. -/
def reg (p : Fin 9) (lf : Pipeline.LaunchFacts (nD := nD) (τ := τ) cfgs p) (Wi Wo : Dev nD → Valuation τ sig (Elt F))
    (hbody : ∀ c, Pipeline.BodyObligationLoose (pdats m ρ p c) defs₀ 𝒱₀ () Set.univ)
    (hq : ∀ c w, (pdats m ρ p c).q w = fullShare) (howed : ∀ c t, (pdats m ρ p c).owed t = 0)
    (hrec : ∀ c, (pdats m ρ p c).recorded 0 = Set.univ)
    (hΦ₀ : ∀ c, (pdats m ρ p c).Φ 0 = Pipeline.ΦA (cfgs p).spec c)
    (hΦₙ : ∀ c, (pdats m ρ p c).Φ (Fin.last _) ⊢ (Pipeline.ΦA (cfgs p).spec c : sProp 𝕄))
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hrest : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held c (Wi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ₀ c]; unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c (Proc.devRef .tc b)) (fun b => Wo c (Proc.devRef .tc b)) ((pdats m ρ p c).arrAt · (cfgs p).N) (fun w => (hF c w).symm)
      fun b hb => hrest c b fun w e => hb (Finset.mem_image.mpr ⟨w, Finset.mem_univ _, e⟩)
    rw [Pipeline.unscopedBufs_held c (Wo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (W0 m ρ)),
    .region (reg m ρ 0 launch0 (W1 m ρ) (W2 m ρ) (fun c => (body_obligation0 (V1 m ρ) c).loose) (fun _ _ => rfl) (fun _ _ => rfl)
      (fun _ => rfl) (fun _ => rfl) (fun _ => .rfl) (A_eq0 (V1 m ρ)) (W2_arr m ρ) (W2_of_ne m ρ)),
    .host (hseg hostOps1 hostOps1_sub hostOps1_fresh (W2 m ρ)),
    .host (hseg hostOps1_1 hostOps1_1_sub hostOps1_1_fresh (W3 m ρ)),
    .region (reg m ρ 1 launch1 (W4 m ρ) (W5 m ρ) (fun c => (body_obligation1 (V4 m ρ) c).loose) (fun _ _ => rfl) (fun _ _ => rfl)
      (fun _ => rfl) (fun _ => rfl) (fun _ => .rfl) (A_eq1 (V4 m ρ)) (W5_arr m ρ) (W5_of_ne m ρ)),
    .region (reg m ρ 2 launch2 (W5 m ρ) (W6 m ρ) (fun c => (body_obligation2 (V5 m ρ) c).loose) (fun _ _ => rfl) (fun _ _ => rfl)
      (fun _ => rfl) (fun _ => rfl) (fun _ => .rfl) (A_eq2 (V5 m ρ)) (W6_arr m ρ) (W6_of_ne m ρ)),
    .host (hseg hostOps3 hostOps3_sub hostOps3_fresh (W6 m ρ)),
    .host (hseg hostOps3_1 hostOps3_1_sub hostOps3_1_fresh (W7 m ρ)),
    .region (reg m ρ 3 launch3 (W8 m ρ) (W9 m ρ) (fun c => (body_obligation3 (V8 m ρ) c).loose) (fun _ _ => rfl) (fun _ _ => rfl)
      (fun _ => rfl) (fun _ => rfl) (fun _ => .rfl) (A_eq3 (V8 m ρ)) (W9_arr m ρ) (W9_of_ne m ρ)),
    .region (reg m ρ 4 launch4 (W9 m ρ) (W10 m ρ) (fun c => (body_obligation4 (V9 m ρ) c).loose) (fun _ _ => rfl) (fun _ _ => rfl)
      (fun _ => rfl) (fun _ => rfl) (fun _ => .rfl) (A_eq4 (V9 m ρ)) (W10_arr m ρ) (W10_of_ne m ρ)),
    .host (hseg hostOps5 hostOps5_sub hostOps5_fresh (W10 m ρ)),
    .host (hseg hostOps5_1 hostOps5_1_sub hostOps5_1_fresh (W11 m ρ)),
    .region (reg m ρ 5 launch5 (W12 m ρ) (W13 m ρ) (fun c => (body_obligation5 (V12 m ρ) c).loose) (fun _ _ => rfl) (fun _ _ => rfl)
      (fun _ => rfl) (fun _ => rfl) (fun _ => .rfl) (A_eq5 (V12 m ρ)) (W13_arr m ρ) (W13_of_ne m ρ)),
    .region (reg m ρ 6 launch6 (W13 m ρ) (W14 m ρ) (fun c => (body_obligation6 (V13 m ρ) c).loose) (fun _ _ => rfl) (fun _ _ => rfl)
      (fun _ => rfl) (fun _ => rfl) (fun _ => .rfl) (A_eq6 (V13 m ρ)) (W14_arr m ρ) (W14_of_ne m ρ)),
    .host (hseg hostOps7 hostOps7_sub hostOps7_fresh (W14 m ρ)),
    .host (hseg hostOps7_1 hostOps7_1_sub hostOps7_1_fresh (W15 m ρ)),
    .region (reg m ρ 7 launch7 (W16 m ρ) (W17 m ρ) (fun c => (body_obligation7 (V16 m ρ) c).loose) (fun _ _ => rfl) (fun _ _ => rfl)
      (fun _ => rfl) (fun _ => rfl) (fun _ => .rfl) (A_eq7 (V16 m ρ)) (W17_arr m ρ) (W17_of_ne m ρ)),
    .host (hseg hostOps8 hostOps8_sub hostOps8_fresh (W17 m ρ)),
    .region (reg m ρ 8 launch8 (W18 m ρ) (W19 m ρ) (fun c => (body_obligation8 (V18 m ρ) c).loose) (fun _ _ => rfl) (fun _ _ => rfl)
      (fun _ => rfl) (Phi8_first (V18 m ρ)) (Phi8_last (V18 m ρ)) (A_eq8 (V18 m ρ)) (W19_arr m ρ) (W19_of_ne m ρ)) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k := fun (b : Ref sig .tc) hu hk => (h c _ (mem_uc b hu)).trans (W19_kept m ρ c b hk)
    exact ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide)⟩)
    (run_all m ρ)

end Cert.Kernel.Hand

end
-- ==== Proof.KernelIdeal.Reg0.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x5 := Rect.unit (s := S2000x5) ![0, 0] S2000x5.size inb_S2000x5_S2000x5_0_0
abbrev r0_1 : Rect S5x32 := Rect.unit (s := S5x32) ![0, 0] S5x32.size inb_S5x32_S5x32_0_0
abbrev r0_2 : Rect S2000x32 := Rect.unit (s := S2000x32) ![0, 0] S2000x32.size inb_S2000x32_S2000x32_0_0

def out0_2 (x0 : Vec F S2000x5 .f32) (x1 : Vec F S5x32 .f32) : Vec F S2000x32 .f32 :=
  View.canon [⟨r0_2, k0_pay1 (View.ld x0 r0_0) (View.ld x1 r0_1)⟩]

theorem cover0_2 (p0 : Vec F S2000x32 .f32) (y : S2000x32.Idx) :
    ∃ pc ∈ ([⟨r0_2, p0⟩] : List (View.Piece (Elt F) S2000x32 .f32)), y ∈ pc.1.set :=
  View.cover_of_tiled [⟨r0_2, p0⟩] S2000x32.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  change _ ⊢ wp _ _ _ (bodyAt0 t) _
  simp only [bodyAt0, before0_0, before0_1, after0_0, after0_1, after0_2, cc0__transform_kernel_eq_skeleton]
  rw [show (dat0 V c).Φ t.succ = (dat0 V c).Φ t.castSucc from rfl,
    show (dat0 V c).owesAt () t.succ = (dat0 V c).owesAt () t.castSucc from rfl]
  generalize iblk0 V c 0 t = x0, iblk0 V c 1 t = x1
  unfold cc0__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Hand

end
-- ==== Proof.KernelIdeal.Reg1.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S2000x1 := Rect.unit (s := S2000x1) ![0, 0] S2000x1.size inb_S2000x1_S2000x1_0_0
abbrev r1_2 : Rect S1x32 := Rect.unit (s := S1x32) ![0, 0] S1x32.size inb_S1x32_S1x32_0_0

def out1_4 (x0 : Vec F S2000x32 .f32) (x1 : Vec F S2000x32 .f32) (x2 : Vec F S2000x1 .f32) (x3 : Vec F S1x32 .f32) : Vec F S2000x32 .f32 :=
  View.canon [⟨r1_0, k1_pay1 (View.ld x0 r1_0) (View.ld x1 r1_0) (View.ld x2 r1_1) (View.ld x3 r1_2)⟩]

theorem cover1_4 (p0 : Vec F S2000x32 .f32) (y : S2000x32.Idx) :
    ∃ pc ∈ ([⟨r1_0, p0⟩] : List (View.Piece (Elt F) S2000x32 .f32)), y ∈ pc.1.set :=
  View.cover_of_tiled [⟨r1_0, p0⟩] S2000x32.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  change _ ⊢ wp _ _ _ (bodyAt1 t) _
  simp only [bodyAt1, before1_0, before1_1, before1_2, before1_3, after1_0, after1_1, after1_2, after1_3, after1_4, cc1__combine_kernel_eq_skeleton]
  rw [show (dat1 V c).Φ t.succ = (dat1 V c).Φ t.castSucc from rfl,
    show (dat1 V c).owesAt () t.succ = (dat1 V c).owesAt () t.castSucc from rfl]
  generalize iblk1 V c 0 t = x0, iblk1 V c 1 t = x1, iblk1 V c 2 t = x2, iblk1 V c 3 t = x3
  unfold cc1__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end Cert.KernelIdeal.Hand

end
-- ==== Proof.KernelIdeal.Reg2.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x32 := Rect.unit (s := S2000x32) ![0, 0] S2000x32.size inb_S2000x32_S2000x32_0_0
abbrev r2_1 : Rect S32x64 := Rect.unit (s := S32x64) ![0, 0] S32x64.size inb_S32x64_S32x64_0_0
abbrev r2_2 : Rect S2000x64 := Rect.unit (s := S2000x64) ![0, 0] S2000x64.size inb_S2000x64_S2000x64_0_0

def out2_2 (x0 : Vec F S2000x32 .f32) (x1 : Vec F S32x64 .f32) : Vec F S2000x64 .f32 :=
  View.canon [⟨r2_2, k2_pay1 (View.ld x0 r2_0) (View.ld x1 r2_1)⟩]

theorem cover2_2 (p0 : Vec F S2000x64 .f32) (y : S2000x64.Idx) :
    ∃ pc ∈ ([⟨r2_2, p0⟩] : List (View.Piece (Elt F) S2000x64 .f32)), y ∈ pc.1.set :=
  View.cover_of_tiled [⟨r2_2, p0⟩] S2000x64.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  change _ ⊢ wp _ _ _ (bodyAt2 t) _
  simp only [bodyAt2, before2_0, before2_1, after2_0, after2_1, after2_2, cc2__transform_kernel_eq_skeleton]
  rw [show (dat2 V c).Φ t.succ = (dat2 V c).Φ t.castSucc from rfl,
    show (dat2 V c).owesAt () t.succ = (dat2 V c).owesAt () t.castSucc from rfl]
  generalize iblk2 V c 0 t = x0, iblk2 V c 1 t = x1
  unfold cc2__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.KernelIdeal.Hand

end
-- ==== Proof.KernelIdeal.Reg3.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_4 (x0 : Vec F S2000x64 .f32) (x1 : Vec F S2000x64 .f32) (x2 : Vec F S2000x1 .f32) (x3 : Vec F S1x64 .f32) : Vec F S2000x64 .f32 :=
  View.canon [⟨r3_0, k3_pay1 (View.ld x0 r3_0) (View.ld x1 r3_0) (View.ld x2 r3_1) (View.ld x3 r3_2)⟩]

theorem cover3_4 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  change _ ⊢ wp _ _ _ (bodyAt3 t) _
  simp only [bodyAt3, before3_0, before3_1, before3_2, before3_3, after3_0, after3_1, after3_2, after3_3, after3_4, cc3__combine_kernel_eq_skeleton]
  rw [show (dat3 V c).Φ t.succ = (dat3 V c).Φ t.castSucc from rfl,
    show (dat3 V c).owesAt () t.succ = (dat3 V c).owesAt () t.castSucc from rfl]
  generalize iblk3 V c 0 t = x0, iblk3 V c 1 t = x1, iblk3 V c 2 t = x2, iblk3 V c 3 t = x3
  unfold cc3__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end Cert.KernelIdeal.Hand

end
-- ==== Proof.KernelIdeal.Reg4.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x64 := Rect.unit (s := S2000x64) ![0, 0] S2000x64.size inb_S2000x64_S2000x64_0_0
abbrev r4_1 : Rect S64x128 := Rect.unit (s := S64x128) ![0, 0] S64x128.size inb_S64x128_S64x128_0_0
abbrev r4_2 : Rect S2000x128 := Rect.unit (s := S2000x128) ![0, 0] S2000x128.size inb_S2000x128_S2000x128_0_0

def out4_2 (x0 : Vec F S2000x64 .f32) (x1 : Vec F S64x128 .f32) : Vec F S2000x128 .f32 :=
  View.canon [⟨r4_2, k4_pay1 (View.ld x0 r4_0) (View.ld x1 r4_1)⟩]

theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  change _ ⊢ wp _ _ _ (bodyAt4 t) _
  simp only [bodyAt4, before4_0, before4_1, after4_0, after4_1, after4_2, cc4__transform_kernel_eq_skeleton]
  rw [show (dat4 V c).Φ t.succ = (dat4 V c).Φ t.castSucc from rfl,
    show (dat4 V c).owesAt () t.succ = (dat4 V c).owesAt () t.castSucc from rfl]
  generalize iblk4 V c 0 t = x0, iblk4 V c 1 t = x1
  unfold cc4__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

end Cert.KernelIdeal.Hand

end
-- ==== Proof.KernelIdeal.Reg5.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S2000x1 := Rect.unit (s := S2000x1) ![0, 0] S2000x1.size inb_S2000x1_S2000x1_0_0
abbrev r5_2 : Rect S1x128 := Rect.unit (s := S1x128) ![0, 0] S1x128.size inb_S1x128_S1x128_0_0

def out5_4 (x0 : Vec F S2000x128 .f32) (x1 : Vec F S2000x128 .f32) (x2 : Vec F S2000x1 .f32) (x3 : Vec F S1x128 .f32) : Vec F S2000x128 .f32 :=
  View.canon [⟨r5_0, k5_pay1 (View.ld x0 r5_0) (View.ld x1 r5_0) (View.ld x2 r5_1) (View.ld x3 r5_2)⟩]

theorem cover5_4 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  change _ ⊢ wp _ _ _ (bodyAt5 t) _
  simp only [bodyAt5, before5_0, before5_1, before5_2, before5_3, after5_0, after5_1, after5_2, after5_3, after5_4, cc5__combine_kernel_eq_skeleton]
  rw [show (dat5 V c).Φ t.succ = (dat5 V c).Φ t.castSucc from rfl,
    show (dat5 V c).owesAt () t.succ = (dat5 V c).owesAt () t.castSucc from rfl]
  generalize iblk5 V c 0 t = x0, iblk5 V c 1 t = x1, iblk5 V c 2 t = x2, iblk5 V c 3 t = x3
  unfold cc5__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

end Cert.KernelIdeal.Hand

end
-- ==== Proof.KernelIdeal.Reg6.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S128x256 := Rect.unit (s := S128x256) ![0, 0] S128x256.size inb_S128x256_S128x256_0_0
abbrev r6_2 : Rect S2000x256 := Rect.unit (s := S2000x256) ![0, 0] S2000x256.size inb_S2000x256_S2000x256_0_0

def out6_2 (x0 : Vec F S2000x128 .f32) (x1 : Vec F S128x256 .f32) : Vec F S2000x256 .f32 :=
  View.canon [⟨r6_2, k6_pay1 (View.ld x0 r6_0) (View.ld x1 r6_1)⟩]

theorem cover6_2 (p0 : Vec F S2000x256 .f32) (y : S2000x256.Idx) :
    ∃ pc ∈ ([⟨r6_2, p0⟩] : List (View.Piece (Elt F) S2000x256 .f32)), y ∈ pc.1.set :=
  View.cover_of_tiled [⟨r6_2, p0⟩] S2000x256.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  change _ ⊢ wp _ _ _ (bodyAt6 t) _
  simp only [bodyAt6, before6_0, before6_1, after6_0, after6_1, after6_2, cc6__transform_kernel_eq_skeleton]
  rw [show (dat6 V c).Φ t.succ = (dat6 V c).Φ t.castSucc from rfl,
    show (dat6 V c).owesAt () t.succ = (dat6 V c).owesAt () t.castSucc from rfl]
  generalize iblk6 V c 0 t = x0, iblk6 V c 1 t = x1
  unfold cc6__transform_kernel_skel owns
  iintro ⟨HΦ, Ho, ⟨%d0, %f0, %hf0, H0⟩, ⟨%d1, %f1, %hf1, H1⟩, ⟨%d2, %f2, -, H2⟩⟩
  subst hf0 hf1
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

end Cert.KernelIdeal.Hand

end
-- ==== Proof.KernelIdeal.Reg7.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S2000x1 := Rect.unit (s := S2000x1) ![0, 0] S2000x1.size inb_S2000x1_S2000x1_0_0
abbrev r7_2 : Rect S1x256 := Rect.unit (s := S1x256) ![0, 0] S1x256.size inb_S1x256_S1x256_0_0

def out7_4 (x0 : Vec F S2000x256 .f32) (x1 : Vec F S2000x256 .f32) (x2 : Vec F S2000x1 .f32) (x3 : Vec F S1x256 .f32) : Vec F S2000x256 .f32 :=
  View.canon [⟨r7_0, k7_pay1 (View.ld x0 r7_0) (View.ld x1 r7_0) (View.ld x2 r7_1) (View.ld x3 r7_2)⟩]

theorem cover7_4 (p0 : Vec F S2000x256 .f32) (y : S2000x256.Idx) :
    ∃ pc ∈ ([⟨r7_0, p0⟩] : List (View.Piece (Elt F) S2000x256 .f32)), y ∈ pc.1.set :=
  View.cover_of_tiled [⟨r7_0, p0⟩] S2000x256.size (by rfl) y

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  change _ ⊢ wp _ _ _ (bodyAt7 t) _
  simp only [bodyAt7, before7_0, before7_1, before7_2, before7_3, after7_0, after7_1, after7_2, after7_3, after7_4, cc7__combine_kernel_eq_skeleton]
  rw [show (dat7 V c).Φ t.succ = (dat7 V c).Φ t.castSucc from rfl,
    show (dat7 V c).owesAt () t.succ = (dat7 V c).owesAt () t.castSucc from rfl]
  generalize iblk7 V c 0 t = x0, iblk7 V c 1 t = x1, iblk7 V c 2 t = x2, iblk7 V c 3 t = x3
  unfold cc7__combine_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

end Cert.KernelIdeal.Hand

end
-- ==== Proof.KernelIdeal.Reg8.lean ====
import proofs.«427753_j34041910788666_1_alg».proof.Proof.Gen.KernelIdeal.Launch
import proofs.«427753_j34041910788666_1_alg».proof.Proof.Gen.KernelIdeal.Skeleton
import proofs.«427753_j34041910788666_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond8_0 (i : grid8.Coords) : Prop := (Scalar.cmpi .ne (Scalar.extui (Scalar.cmpi .eq (BitVec.ofNat 32 (i 0).val) 0#32)) 0#32) = 1#1
abbrev cond8_1 (i : grid8.Coords) : Prop := k8_cond2 i = 1#1

/-- Over the 25 grid points the body's first test holds at point 0 only and its second at point 24 only. -/
theorem hcond8_0 : ∀ t : Fin cfg8.N, cond8_0 (grid8.coords t) ↔ t.val = 0 := (by decide +kernel : ∀ t : Fin grid8.N, _)
theorem hcond8_1 : ∀ t : Fin cfg8.N, cond8_1 (grid8.coords t) ↔ t.val = 24 := (by decide +kernel : ∀ t : Fin grid8.N, _)

theorem idleAt8_4 : ∀ t : Fin cfg8.N, t.val ≠ 24 → cfg8.idle 4 (grid8.coords t) = true := by decide +kernel
theorem noFlush8_4 : ∀ t : Fin cfg8.N, t.val ≠ 24 → (cfg8.win 4).flush t = false := by decide +kernel
theorem liveAt8_4 : ∀ t : Fin cfg8.N, t.val = 24 → cfg8.idle 4 (grid8.coords t) = false := by decide +kernel

abbrev scM8_0 : Memref sig .tc .vmem S512x256 .f32 := Memref.whole cc8_scratch0
abbrev scM8_1 : Memref sig .tc .vmem S512x1 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

/-- The region's invariant with the two accumulators split off from the other buffers it holds, each owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

theorem hz8 : (![0, 0] : Fin 2 → Nat) = fun _ => 0 := funext fun a => by fin_cases a <;> rfl

/-- The last store covers the whole shape, so what was written before it does not matter. -/
theorem read_writes_last_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons.mpr (.inl rfl), View.mem_set_unit_zero h inb y⟩).trans
    (View.canon_cons_unit_zero h inb w L)

set_option maxHeartbeats 1000000 in
/-- The body on whole buffers, in every case of its two tests: where the first holds both accumulators restart from zero (b0, b1 name what they restart from); one block's per-graph sums and counts are added; where the second holds the classifier's log-softmax on the new accumulators is stored into the output. -/
theorem run8 (c : Dev nD) (E : Set ℕ) (i : grid8.Coords)
    (arg1 : Memref sig .tc .vmem S2000x256 .f32) (harg1 : arg1.IsWhole) (arg2 : Memref sig .tc .vmem S2000x1 .i32) (harg2 : arg2.IsWhole)
    (arg3 : Memref sig .tc .vmem S256x10 .f32) (harg3 : arg3.IsWhole) (arg4 : Memref sig .tc .vmem S1x10 .f32) (harg4 : arg4.IsWhole)
    (arg5 : Memref sig .tc .vmem S512x10 .f32) (harg5 : arg5.IsWhole) (arg6 : Memref sig .tc .vmem S512x256 .f32) (harg6 : arg6.IsWhole)
    (arg7 : Memref sig .tc .vmem S512x1 .f32) (harg7 : arg7.IsWhole)
    (x0 : Vec F S2000x256 .f32) (x1 : Vec F S2000x1 .i32) (x2 : Vec F S256x10 .f32) (x3 : Vec F S1x10 .f32) (x4 : Vec F S512x10 .f32)
    (a0 b0 : Vec F S512x256 .f32) (a1 b1 : Vec F S512x1 .f32)
    (h0 : (if cond8_0 i then k8_pay1 else a0) = b0) (h1 : (if cond8_0 i then k8_pay2 else a1) = b1)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if cond8_1 i then k8_pay6 (k8_pay4 x0 x1 b0) (k8_pay5 x1 b1) x2 x3 else x4)
            ∗ owns (c : Thread nD τ) arg6 fullShare (k8_pay4 x0 x1 b0) ∗ owns (c : Thread nD τ) arg7 fullShare (k8_pay5 x1 b1)) -∗ K ⟨⟩))
      ⊢ wp frame (wpE (defs₀ (F := F)) Variants.none c none) E (cc8__pool_classify_kernel i arg1 harg1 arg2 harg2 arg3 harg3 arg4 harg4 arg5 harg5 arg6 harg6 arg7 harg7) K := by
  subst h0 h1
  by_cases hc0 : cond8_0 i <;> by_cases hc1 : cond8_1 i
  all_goals
    first | rw [if_pos hc0, if_pos hc0] | rw [if_neg hc0, if_neg hc0]
    first | rw [if_pos hc1] | rw [if_neg hc1]
    simp only [cc8__pool_classify_kernel_eq_skeleton]; unfold cc8__pool_classify_kernel_skel owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
    obtain rfl := harg1.eq_unread e0; obtain rfl := harg2.eq_unread e1; obtain rfl := harg3.eq_unread e2; obtain rfl := harg4.eq_unread e3
    obtain rfl := harg5.eq_unread e4; obtain rfl := harg6.eq_unread e5; obtain rfl := harg7.eq_unread e6
    sl_exec (disch := first | exact hc0 | exact hc1)
    sl_step
    iapply Hk
    isplitl [H0]; rotate_left; isplitl [H1]; rotate_left; isplitl [H2]; rotate_left; isplitl [H3]; rotate_left
    isplitl [H4]; rotate_left; isplitl [H5]; rotate_left
    all_goals
      iexists _; isplitr; swap; · iassumption
      ipureintro
      first
      | sl_unfold_run_names
        rw [read_writes_last_whole _ _ hz8]
        simp only [View.readAt_eq_ld, harg1.read_unread, harg2.read_unread, harg3.read_unread, harg4.read_unread, harg6.read_unread, harg7.read_unread,
          View.ld_unit_zero (S := S2000x256) hz8, View.ld_unit_zero (S := S2000x1) hz8, View.ld_unit_zero (S := S256x10) hz8, View.ld_unit_zero (S := S1x10) hz8,
          View.ld_unit_zero (S := S512x256) hz8, View.ld_unit_zero (S := S512x1) hz8, View.readCov_cons_toLoadRect]
      | exact Memref.IsWhole.read_unread _ _

variable (V : (c : Dev nD) → (b : Ref sig .tc) → Buf (Elt F) ((c : Thread nD τ).loc b))

/-- Block t of window w's array, at the contents V. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev xblk8 (c : Dev nD) (t : Fin cfg8.N) : Vec F S2000x256 .f32 := iblk8 V c 0 t
abbrev gblk8 (c : Dev nD) (t : Fin cfg8.N) : Vec F S2000x1 .i32 := iblk8 V c 1 t
abbrev wblk8 (c : Dev nD) (t : Fin cfg8.N) : Vec F S256x10 .f32 := iblk8 V c 2 t
abbrev bblk8 (c : Dev nD) (t : Fin cfg8.N) : Vec F S1x10 .f32 := iblk8 V c 3 t

/-- The sum and the count accumulator before each point: zero, then one block's sums and counts more at each point. -/
def sum8 (c : Dev nD) (s : Fin (cfg8.N + 1)) : Vec F S512x256 .f32 :=
  Fin.induction (motive := fun _ => Vec F S512x256 .f32) k8_pay1 (fun t a => k8_pay4 (xblk8 V c t) (gblk8 V c t) a) s
def cnt8 (c : Dev nD) (s : Fin (cfg8.N + 1)) : Vec F S512x1 .f32 :=
  Fin.induction (motive := fun _ => Vec F S512x1 .f32) k8_pay2 (fun t a => k8_pay5 (gblk8 V c t) a) s

theorem sum8_succ (c : Dev nD) (t : Fin cfg8.N) : sum8 V c t.succ = k8_pay4 (xblk8 V c t) (gblk8 V c t) (sum8 V c t.castSucc) :=
  Fin.induction_succ _ _ t
theorem cnt8_succ (c : Dev nD) (t : Fin cfg8.N) : cnt8 V c t.succ = k8_pay5 (gblk8 V c t) (cnt8 V c t.castSucc) :=
  Fin.induction_succ _ _ t

/-- What the body stores in the output block at point t (it does so at the last point only). -/
def out8 (c : Dev nD) (t : Fin cfg8.N) : Vec F S512x10 .f32 :=
  k8_pay6 (k8_pay4 (xblk8 V c t) (gblk8 V c t) (sum8 V c t.castSucc)) (k8_pay5 (gblk8 V c t) (cnt8 V c t.castSucc)) (wblk8 V c t) (bblk8 V c t)

/-- The invariant before a point: at entry the region's own; later the two accumulators, owned at the sums and counts so far, beside the rest. -/
def Phi8 (c : Dev nD) (s : Fin (cfg8.N + 1)) : sProp 𝕄 :=
  if s = 0 then Pipeline.ΦA spec8 c
  else iprop(owns (c : Thread nD τ) scM8_0 fullShare (sum8 V c s) ∗ owns (c : Thread nD τ) scM8_1 fullShare (cnt8 V c s) ∗ rest8 c ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 V c t
  Φ := Phi8 V c
  q _ := fullShare
  owed _ := 0

theorem A_eq8 (c : Dev nD) (w : Fin cfg8.W) : (dat8 V c).A w = V c (Pipeline.arrRef spec8 w) := rfl

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d

/-- Before any point the invariant holds both accumulators: at the first point at anything, which the body's first test then discards; later at what the points before left. -/
theorem Phi8_open (c : Dev nD) (t : Fin cfg8.N) :
    Phi8 V c t.castSucc ⊢ (iprop(∃ a0 a1, ⌜(if cond8_0 (grid8.coords t) then k8_pay1 else a0) = sum8 V c t.castSucc
        ∧ (if cond8_0 (grid8.coords t) then k8_pay2 else a1) = cnt8 V c t.castSucc⌝
      ∗ owns (c : Thread nD τ) scM8_0 fullShare a0 ∗ owns (c : Thread nD τ) scM8_1 fullShare a1 ∗ rest8 c ∗ (∃ r, prngReg c r)) : sProp 𝕄) := by
  unfold Phi8
  by_cases hz : t.val = 0
  · have h0 : t.castSucc = 0 := Fin.ext hz
    rw [if_pos h0, PhiA8_eq, h0]
    iintro ⟨⟨⟨⟨%a0, H0⟩, ⟨%a1, H1⟩⟩, Hr⟩, Hg⟩
    iexists a0; iexists a1
    isplitr; · ipureintro; exact ⟨if_pos ((hcond8_0 t).mpr hz), if_pos ((hcond8_0 t).mpr hz)⟩
    iframe
  · rw [if_neg (fun h => hz (Fin.val_eq_of_eq h))]
    iintro H
    iexists _; iexists _
    isplitr; · ipureintro; exact ⟨if_neg (mt (hcond8_0 t).mp hz), if_neg (mt (hcond8_0 t).mp hz)⟩
    iexact H

/-- Where the second test holds the output block is the body's store, elsewhere it is unchanged: the two cases of what is asked of the output window. -/
theorem leaves8_4 (c : Dev nD) (t : Fin cfg8.N) (d) :
    owns (c : Thread nD τ) (st8_4 t) fullShare (if cond8_1 (grid8.coords t) then out8 V c t else (dat8 V c).before 4 t d) ⊢ (dat8 V c).leavesExact 4 t := by
  by_cases h : t.val = 24
  · rw [if_pos ((hcond8_1 t).mpr h)]; unfold Dat.leavesExact; rw [liveAt8_4 t h]; exact .rfl
  · rw [if_neg (mt (hcond8_1 t).mp h), Dat.leavesExact_idle (dat8 V c) 4 t (idleAt8_4 t h) (noFlush8_4 t h)]
    iintro H; iexists d; iexact H

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.castSucc
    ∗ owns (c : Thread nD τ) (st8_0 t) fullShare (iblk8 V c 0 t)
    ∗ owns (c : Thread nD τ) (st8_1 t) fullShare (iblk8 V c 1 t)
    ∗ owns (c : Thread nD τ) (st8_2 t) fullShare (iblk8 V c 2 t)
    ∗ owns (c : Thread nD τ) (st8_3 t) fullShare (iblk8 V c 3 t)
    ∗ (dat8 V c).leavesExact 4 t)

set_option maxHeartbeats 4800000 in
/-- The body at any point: the invariant's accumulators go through the run, which hands them back one block further, and the inputs come back untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = Phi8 V c t.succ from rfl, show (dat8 V c).Φ t.castSucc = Phi8 V c t.castSucc from rfl]
  refine (sep_mono_left (Phi8_open V c t)).trans ?_
  unfold Phi8; rw [if_neg (Fin.succ_ne_zero t), sum8_succ, cnt8_succ]
  iintro ⟨⟨%a0, %a1, %ha, HS0, HS1, Hrest, Hg⟩, Ho, ⟨%d0, H0⟩, ⟨%d1, H1⟩, ⟨%d2, H2⟩, ⟨%d3, H3⟩, ⟨%d4, H4⟩⟩
  iapply (run8 c Set.univ (grid8.coords t) _ _ _ _ _ _ _ _ _ _ _ _ _ _
    (xblk8 V c t) (gblk8 V c t) (wblk8 V c t) (bblk8 V c t) _ a0 _ a1 _ ha.1 ha.2 _)
  iframe H0 H1 H2 H3 H4 HS0 HS1
  iintro ⟨H0, H1, H2, H3, H4, HS0, HS1⟩
  iframe Ho H0 H1 H2 H3 HS0 HS1 Hrest Hg
  iapply (leaves8_4 V c t d4)
  iexact H4

theorem body_obligation8 (c : Dev nD) : BodyObligation (dat8 (F := F) V c) (defs₀ (F := F)) Variants.none () Set.univ := fun t => by
  rw [bigSep_W8, bigSep_W8]
  exact sound_body8 V c t

theorem Phi8_first (c : Dev nD) : (dat8 (F := F) V c).Φ 0 = Pipeline.ΦA spec8 c := (if_pos rfl : Phi8 V c 0 = _)

/-- At the region's exit the accumulators, at whatever they hold, rejoin the other buffers of the invariant. -/
theorem Phi8_last (c : Dev nD) : (dat8 (F := F) V c).Φ (Fin.last _) ⊢ (Pipeline.ΦA spec8 c : sProp 𝕄) := by
  rw [show (dat8 V c).Φ (Fin.last _) = Phi8 V c (Fin.last _) from rfl]; unfold Phi8
  rw [if_neg (by decide +kernel), PhiA8_eq]
  iintro ⟨H0, H1, Hr, Hg⟩
  iframe Hr Hg
  isplitl [H0]; · iexists _; iexact H0
  iexists _; iexact H1

end Cert.KernelIdeal.Hand

end
-- ==== Proof.KernelIdeal.Fold.lean ====
import proofs.«427753_j34041910788666_1_alg».proof.Proof.KernelIdeal.Reg0
import proofs.«427753_j34041910788666_1_alg».proof.Proof.KernelIdeal.Reg1
import proofs.«427753_j34041910788666_1_alg».proof.Proof.KernelIdeal.Reg2
import proofs.«427753_j34041910788666_1_alg».proof.Proof.KernelIdeal.Reg3
import proofs.«427753_j34041910788666_1_alg».proof.Proof.KernelIdeal.Reg4
import proofs.«427753_j34041910788666_1_alg».proof.Proof.KernelIdeal.Reg5
import proofs.«427753_j34041910788666_1_alg».proof.Proof.KernelIdeal.Reg6
import proofs.«427753_j34041910788666_1_alg».proof.Proof.KernelIdeal.Reg7
import proofs.«427753_j34041910788666_1_alg».proof.Proof.KernelIdeal.Reg8
import proofs.«427753_j34041910788666_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe
open Idealize.ShloMosaic.Pipeline (Dat Cfg)
open Cert.KernelIdeal Cert.KernelIdeal.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Thread nD τ).1, b)

abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

abbrev W4 : Dev nD → Valuation τ sig (Elt F) := fun c => StableHlo.after hostOps1_1 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

abbrev W8 : Dev nD → Valuation τ sig (Elt F) := fun c => StableHlo.after hostOps3_1 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) :=
  Pipeline.withArrays_of_ne spec3 c _ _ b hb

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev V10 : (c : Dev nD) → (b : Ref sig .tc) → Buf (Elt F) ((c : Thread nD τ).loc b) := fun c b => W10 m ρ c b

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

abbrev W12 : Dev nD → Valuation τ sig (Elt F) := fun c => StableHlo.after hostOps5_1 (W11 m ρ c)

abbrev V12 : (c : Dev nD) → (b : Ref sig .tc) → Buf (Elt F) ((c : Thread nD τ).loc b) := fun c b => W12 m ρ c b

def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N :=
  Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) :=
  Pipeline.withArrays_of_ne spec5 c _ _ b hb

abbrev V13 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb

abbrev V14 : (c : Dev nD) → (b : Ref sig .tc) → Buf (Elt F) ((c : Thread nD τ).loc b) := fun c b => W14 m ρ c b

abbrev W15 : Dev nD → Valuation τ sig (Elt F) := fun c => StableHlo.after hostOps7 (W14 m ρ c)

abbrev V15 : (c : Dev nD) → (b : Ref sig .tc) → Buf (Elt F) ((c : Thread nD τ).loc b) := fun c b => W15 m ρ c b

abbrev W16 : Dev nD → Valuation τ sig (Elt F) := fun c => StableHlo.after hostOps7_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec7 c (W16 m ρ c) fun w => (dat7 (V16 m ρ) c).arrAt w cfg7.N
theorem W17_arr (c : Dev nD) (w : Fin cfg7.W) :
    W17 m ρ c (Proc.devRef .tc (Pipeline.arrRef spec7 w)) = (dat7 (V16 m ρ) c).arrAt w cfg7.N :=
  Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) :=
  Pipeline.withArrays_of_ne spec7 c _ _ b hb

abbrev V17 : (c : Dev nD) → (b : Ref sig .tc) → Buf (Elt F) ((c : Thread nD τ).loc b) := fun c b => W17 m ρ c b

abbrev W18 : Dev nD → Valuation τ sig (Elt F) := fun c => StableHlo.after hostOps8 (W17 m ρ c)

abbrev V18 : (c : Dev nD) → (b : Ref sig .tc) → Buf (Elt F) ((c : Thread nD τ).loc b) := fun c b => W18 m ρ c b

def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N :=
  Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) :=
  Pipeline.withArrays_of_ne spec8 c _ _ b hb

abbrev V19 : (c : Dev nD) → (b : Ref sig .tc) → Buf (Elt F) ((c : Thread nD τ).loc b) := fun c b => W19 m ρ c b

/-- `b` is not the array of an output window of `cfg`. -/
abbrev NotOut (cfg : Cfg sig Λ₀) (b : Ref sig .tc) : Prop :=
  ∀ w, Pipeline.arrRef cfg.spec w = b → (cfg.win w).isOut = false

/-- A region's exit contents agree with its entry contents at such a buffer: an input window's array is the same at every point. -/
theorem keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc) (hb : NotOut cfg b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hb w rfl), hA]
  · exact Pipeline.withArrays_of_ne _ c V _ b fun w e => h ⟨w, e⟩

/-- A buffer that no host stretch writes and no region has as an output ends holding what it was launched with. -/
theorem W19_kept (c : Dev nD) (b : Ref sig .tc)
    (h : b ∉ hostOps0_W ∧ NotOut cfg0 b ∧ b ∉ hostOps1_W ∧ b ∉ hostOps1_1_W ∧ NotOut cfg1 b ∧ NotOut cfg2 b ∧ b ∉ hostOps3_W
      ∧ b ∉ hostOps3_1_W ∧ NotOut cfg3 b ∧ NotOut cfg4 b ∧ b ∉ hostOps5_W ∧ b ∉ hostOps5_1_W ∧ NotOut cfg5 b ∧ NotOut cfg6 b
      ∧ b ∉ hostOps7_W ∧ b ∉ hostOps7_1_W ∧ NotOut cfg7 b ∧ b ∉ hostOps8_W ∧ NotOut cfg8 b) :
    W19 m ρ c (Proc.devRef .tc b) = m ((c : Thread nD τ).loc b) := by
  obtain ⟨h0, r0, h1, h1', r1, r2, h3, h3', r3, r4, h5, h5', r5, r6, h7, h7', r7, h8, r8⟩ := h
  exact (keep (dat8 (V18 m ρ) c) launch8.win.arr_inj (W18 m ρ c) (A_eq8 (V18 m ρ) c) b r8).trans <|
    (StableHlo.after_of_writes_sub hostOps8 _ hostOps8_writes h8).trans <|
    (keep (dat7 (V16 m ρ) c) launch7.win.arr_inj (W16 m ρ c) (A_eq7 (V16 m ρ) c) b r7).trans <|
    (StableHlo.after_of_writes_sub hostOps7_1 _ hostOps7_1_writes h7').trans <|
    (StableHlo.after_of_writes_sub hostOps7 _ hostOps7_writes h7).trans <|
    (keep (dat6 (V13 m ρ) c) launch6.win.arr_inj (W13 m ρ c) (A_eq6 (V13 m ρ) c) b r6).trans <|
    (keep (dat5 (V12 m ρ) c) launch5.win.arr_inj (W12 m ρ c) (A_eq5 (V12 m ρ) c) b r5).trans <|
    (StableHlo.after_of_writes_sub hostOps5_1 _ hostOps5_1_writes h5').trans <|
    (StableHlo.after_of_writes_sub hostOps5 _ hostOps5_writes h5).trans <|
    (keep (dat4 (V9 m ρ) c) launch4.win.arr_inj (W9 m ρ c) (A_eq4 (V9 m ρ) c) b r4).trans <|
    (keep (dat3 (V8 m ρ) c) launch3.win.arr_inj (W8 m ρ c) (A_eq3 (V8 m ρ) c) b r3).trans <|
    (StableHlo.after_of_writes_sub hostOps3_1 _ hostOps3_1_writes h3').trans <|
    (StableHlo.after_of_writes_sub hostOps3 _ hostOps3_writes h3).trans <|
    (keep (dat2 (V5 m ρ) c) launch2.win.arr_inj (W5 m ρ c) (A_eq2 (V5 m ρ) c) b r2).trans <|
    (keep (dat1 (V4 m ρ) c) launch1.win.arr_inj (W4 m ρ c) (A_eq1 (V4 m ρ) c) b r1).trans <|
    (StableHlo.after_of_writes_sub hostOps1_1 _ hostOps1_1_writes h1').trans <|
    (StableHlo.after_of_writes_sub hostOps1 _ hostOps1_writes h1).trans <|
    (keep (dat0 (V1 m ρ) c) launch0.win.arr_inj (W1 m ρ c) (A_eq0 (V1 m ρ) c) b r0).trans <|
    (StableHlo.after_of_writes_sub hostOps0 _ hostOps0_writes h0)

end Cert.KernelIdeal.Hand

end
-- ==== Proof.KernelIdeal.Run.lean ====
import proofs.«427753_j34041910788666_1_alg».proof.Proof.KernelIdeal.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V5 m ρ) c
  | ⟨3, _⟩ => fun c => dat3 (V8 m ρ) c
  | ⟨4, _⟩ => fun c => dat4 (V9 m ρ) c
  | ⟨5, _⟩ => fun c => dat5 (V12 m ρ) c
  | ⟨6, _⟩ => fun c => dat6 (V13 m ρ) c
  | ⟨7, _⟩ => fun c => dat7 (V16 m ρ) c
  | ⟨8, _⟩ => fun c => dat8 (V18 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

set_option backward.isDefEq.respectTransparency.types false in
/-- A kernel region as an item of the run between the boundary contents `Wi` and `Wo`; the nine regions differ only in these arguments. -/
def reg (p : Fin 9) (lf : Pipeline.LaunchFacts (nD := nD) (τ := τ) cfgs p) (Wi Wo : Dev nD → Valuation τ sig (Elt F))
    (hbody : ∀ c, Pipeline.BodyObligationLoose (pdats m ρ p c) defs₀ 𝒱₀ () Set.univ)
    (hq : ∀ c w, (pdats m ρ p c).q w = fullShare) (howed : ∀ c t, (pdats m ρ p c).owed t = 0)
    (hrec : ∀ c, (pdats m ρ p c).recorded 0 = Set.univ)
    (hΦ₀ : ∀ c, (pdats m ρ p c).Φ 0 = Pipeline.ΦA (cfgs p).spec c)
    (hΦₙ : ∀ c, (pdats m ρ p c).Φ (Fin.last _) ⊢ (Pipeline.ΦA (cfgs p).spec c : sProp 𝕄))
    (hA : ∀ c w, (pdats m ρ p c).A w = Wi c (Proc.devRef .tc (Pipeline.arrRef (cfgs p).spec w)))
    (hF : ∀ c w, Wo c (Proc.devRef .tc (Pipeline.arrRef (cfgs p).spec w)) = (pdats m ρ p c).arrAt w (cfgs p).N)
    (hrest : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held c (Wi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    rw [hΦ₀ c]; unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c (Proc.devRef .tc b)) (fun b => Wo c (Proc.devRef .tc b)) ((pdats m ρ p c).arrAt · (cfgs p).N) (fun w => (hF c w).symm)
      fun b hb => hrest c b fun w e => hb (Finset.mem_image.mpr ⟨w, Finset.mem_univ _, e⟩)
    rw [Pipeline.unscopedBufs_held c (Wo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (W0 m ρ)),
    .region (reg m ρ 0 launch0 (W1 m ρ) (W2 m ρ) (fun c => (body_obligation0 (V1 m ρ) c).loose) (fun _ _ => rfl) (fun _ _ => rfl)
      (fun _ => rfl) (fun _ => rfl) (fun _ => .rfl) (A_eq0 (V1 m ρ)) (W2_arr m ρ) (W2_of_ne m ρ)),
    .host (hseg hostOps1 hostOps1_sub hostOps1_fresh (W2 m ρ)),
    .host (hseg hostOps1_1 hostOps1_1_sub hostOps1_1_fresh (W3 m ρ)),
    .region (reg m ρ 1 launch1 (W4 m ρ) (W5 m ρ) (fun c => (body_obligation1 (V4 m ρ) c).loose) (fun _ _ => rfl) (fun _ _ => rfl)
      (fun _ => rfl) (fun _ => rfl) (fun _ => .rfl) (A_eq1 (V4 m ρ)) (W5_arr m ρ) (W5_of_ne m ρ)),
    .region (reg m ρ 2 launch2 (W5 m ρ) (W6 m ρ) (fun c => (body_obligation2 (V5 m ρ) c).loose) (fun _ _ => rfl) (fun _ _ => rfl)
      (fun _ => rfl) (fun _ => rfl) (fun _ => .rfl) (A_eq2 (V5 m ρ)) (W6_arr m ρ) (W6_of_ne m ρ)),
    .host (hseg hostOps3 hostOps3_sub hostOps3_fresh (W6 m ρ)),
    .host (hseg hostOps3_1 hostOps3_1_sub hostOps3_1_fresh (W7 m ρ)),
    .region (reg m ρ 3 launch3 (W8 m ρ) (W9 m ρ) (fun c => (body_obligation3 (V8 m ρ) c).loose) (fun _ _ => rfl) (fun _ _ => rfl)
      (fun _ => rfl) (fun _ => rfl) (fun _ => .rfl) (A_eq3 (V8 m ρ)) (W9_arr m ρ) (W9_of_ne m ρ)),
    .region (reg m ρ 4 launch4 (W9 m ρ) (W10 m ρ) (fun c => (body_obligation4 (V9 m ρ) c).loose) (fun _ _ => rfl) (fun _ _ => rfl)
      (fun _ => rfl) (fun _ => rfl) (fun _ => .rfl) (A_eq4 (V9 m ρ)) (W10_arr m ρ) (W10_of_ne m ρ)),
    .host (hseg hostOps5 hostOps5_sub hostOps5_fresh (W10 m ρ)),
    .host (hseg hostOps5_1 hostOps5_1_sub hostOps5_1_fresh (W11 m ρ)),
    .region (reg m ρ 5 launch5 (W12 m ρ) (W13 m ρ) (fun c => (body_obligation5 (V12 m ρ) c).loose) (fun _ _ => rfl) (fun _ _ => rfl)
      (fun _ => rfl) (fun _ => rfl) (fun _ => .rfl) (A_eq5 (V12 m ρ)) (W13_arr m ρ) (W13_of_ne m ρ)),
    .region (reg m ρ 6 launch6 (W13 m ρ) (W14 m ρ) (fun c => (body_obligation6 (V13 m ρ) c).loose) (fun _ _ => rfl) (fun _ _ => rfl)
      (fun _ => rfl) (fun _ => rfl) (fun _ => .rfl) (A_eq6 (V13 m ρ)) (W14_arr m ρ) (W14_of_ne m ρ)),
    .host (hseg hostOps7 hostOps7_sub hostOps7_fresh (W14 m ρ)),
    .host (hseg hostOps7_1 hostOps7_1_sub hostOps7_1_fresh (W15 m ρ)),
    .region (reg m ρ 7 launch7 (W16 m ρ) (W17 m ρ) (fun c => (body_obligation7 (V16 m ρ) c).loose) (fun _ _ => rfl) (fun _ _ => rfl)
      (fun _ => rfl) (fun _ => rfl) (fun _ => .rfl) (A_eq7 (V16 m ρ)) (W17_arr m ρ) (W17_of_ne m ρ)),
    .host (hseg hostOps8 hostOps8_sub hostOps8_fresh (W17 m ρ)),
    .region (reg m ρ 8 launch8 (W18 m ρ) (W19 m ρ) (fun c => (body_obligation8 (V18 m ρ) c).loose) (fun _ _ => rfl) (fun _ _ => rfl)
      (fun _ => rfl) (Phi8_first (V18 m ρ)) (Phi8_last (V18 m ρ)) (A_eq8 (V18 m ρ)) (W19_arr m ρ) (W19_of_ne m ρ)) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k := fun (b : Ref sig .tc) hu hk => (h c _ (mem_uc b hu)).trans (W19_kept m ρ c b hk)
    exact ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide)⟩)
    (run_all m ρ)

end Cert.KernelIdeal.Hand

end
-- ==== Proof.RefRun.lean ====
import proofs.«427753_j34041910788666_1_alg».proof.Proof.Gen.ReferenceIdeal.Run
import proofs.«427753_j34041910788666_1_alg».proof.Proof.Gen.ReferenceIdeal.Read
-- ==== Proof.LibAllReal.lean ====
import Idealize.ShloMosaic.PureOps.Ideal.Laws
import Idealize.ShloMosaic.Lib.IdealHost
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

def AllReal {S : Shape} (x : S.Idx → EReal) : Prop := ∀ i, ∃ r : ℝ, x i = (r : EReal)

def AllPos {S : Shape} (x : S.Idx → EReal) : Prop := ∀ i, ∃ r : ℝ, 0 < r ∧ x i = (r : EReal)

theorem AllPos.allReal {S : Shape} {x : S.Idx → EReal} (h : AllPos x) : AllReal x :=
  fun i => let ⟨r, _, hr⟩ := h i; ⟨r, hr⟩

theorem coe_max_real (a b : ℝ) : max (a : EReal) (b : EReal) = ((max a b : ℝ) : EReal) :=
  (EReal.coe_strictMono.monotone.map_max).symm

theorem exists_real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (fun _ _ ⟨a, ha⟩ ⟨b, hb⟩ => ⟨a + b, by rw [ha, hb, EReal.coe_add]⟩) ⟨0, EReal.coe_zero.symm⟩ hf

theorem ofBits_f32_one : Ideal.ofBits .f32 0x3F800000#32 = ((1 : ℝ) : EReal) := by
  rw [Ideal.ofBits_one_f32, EReal.coe_one]

theorem ofBits_f32_zero : Ideal.ofBits .f32 0x00000000#32 = ((0 : ℝ) : EReal) := by
  rw [Ideal.ofBits_zero_f32, EReal.coe_zero]

variable {s t : Shape} {φ : FTy}

/-- An operation that takes two reals to a real, applied entry by entry, takes arrays of reals to an array of reals. -/
theorem AllReal.map₂ {x y z : s.Idx → EReal} {g : EReal → EReal → EReal} {f : ℝ → ℝ → ℝ}
    (hg : ∀ a b : ℝ, g a b = (f a b : ℝ)) (hz : ∀ i, z i = g (x i) (y i)) (hx : AllReal x) (hy : AllReal y) :
    AllReal z := fun i =>
  let ⟨a, ha⟩ := hx i; let ⟨b, hb⟩ := hy i; ⟨f a b, by rw [hz, ha, hb, hg]⟩

theorem AllReal.mulf {x y : FVec Ideal s φ} (hx : AllReal x) (hy : AllReal y) : AllReal (mulf (F := Ideal) x y) :=
  .map₂ (g := (· * ·)) (fun a b => (EReal.coe_mul a b).symm) (fun _ => rfl) hx hy

theorem AllReal.addf {x y : FVec Ideal s φ} (hx : AllReal x) (hy : AllReal y) : AllReal (addf (F := Ideal) x y) :=
  .map₂ (g := (· + ·)) (fun a b => (EReal.coe_add a b).symm) (fun _ => rfl) hx hy

theorem AllReal.maximumf {x y : FVec Ideal s φ} (hx : AllReal x) (hy : AllReal y) :
    AllReal (maximumf (F := Ideal) x y) :=
  .map₂ (g := max) coe_max_real (fun _ => rfl) hx hy

/-- At a real `r > 0` the reciprocal square root is the real `(√r)⁻¹`. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

theorem AllReal.constant_zero : AllReal (Idealize.ShloMosaic.constant (F := Ideal) s .f32 0x00000000#32) :=
  fun _ => ⟨0, ofBits_f32_zero⟩

/-- Each entry of a broadcast is an entry of the operand. -/
theorem AllReal.broadcastInDim {dims : Fin s.rank → Fin t.rank} {h : s.BroadcastsInDim t dims} {x : s.Idx → EReal}
    (hx : AllReal x) : AllReal (broadcastInDim t dims h x) :=
  fun _ => hx _

/-- Each entry of a gather is an entry of the operand, whatever the index array holds. -/
theorem AllReal.gather {si : Shape} {w : Nat} {d : GatherDims s si t} {x : s.Idx → EReal} {idx : IVec si w}
    (hx : AllReal x) : AllReal (Host.gather d x idx) :=
  fun _ => hx _

/-- Each entry of an accumulating scatter is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := fun S =>
    let ⟨b, hb⟩ := exists_real_sum S upd (fun j _ => hu j); ⟨a + b, by rw [ha, hb, EReal.coe_add]⟩
  exact key _

/-- Each entry of a contraction is a finite sum of products of an entry of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  rw [show Host.dotGeneral (F := Ideal) d prec l r j = _ from Ideal.dotGeneral_apply d prec .single l r j]
  exact exists_real_sum _ _ fun k _ =>
    let ⟨a, ha⟩ := hl (d.lhsIdx j k); let ⟨b, hb⟩ := hr (d.rhsIdx j k); ⟨a * b, by rw [ha, hb, EReal.coe_mul]⟩

end Cert.Spec

end
-- ==== Proof.Value.PreFacts.lean ====
import Idealize.ShloMosaic.Lib.ReduceAll
import Idealize.ShloMosaic.Lib.ValueIdx
import Idealize.ShloMosaic.Lib.Pipeline.Value
import Idealize.ShloMosaic.PureOps.Ideal.Laws
import proofs.«427753_j34041910788666_1_alg».proof.Pre_finite_inputs
import proofs.«427753_j34041910788666_1_alg».proof.Proof.LibAllReal

noncomputable section

namespace Cert.KernelIdeal.Val

open Idealize.ShloMosaic Idealize.ShloMosaic.ValueIdx
open Cert.Spec

local instance preFacts_subsingleton_scalarIdx : Subsingleton Cert.Pre_finite_inputs.S_.Idx := ⟨fun a b => funext fun d => d.elim0⟩

theorem ofBits_f32_inf : Ideal.ofBits .f32 0x7F800000#32 = (⊤ : EReal) := by
  simp [Ideal.ofBits, Ideal.ieee]

/-- The absolute value of either infinity is plus infinity, which is not below itself. -/
theorem real_of_abs_lt_top (x : EReal) (h : Ideal.cmp .olt (max x (-x)) (⊤ : EReal) = 1#1) :
    ∃ r : ℝ, x = (r : EReal) := by
  induction x using EReal.rec with
  | bot => exact absurd h (by simp [Ideal.cmp])
  | coe r => exact ⟨r, rfl⟩
  | top => exact absurd h (by simp [Ideal.cmp])

theorem allReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (h : Host.reduce IntOp.andi
          (cmpf .olt (Host.absf x)
            (broadcastInDim S ![] hb (constant (F := Ideal) Cert.Pre_finite_inputs.S_ .f32 0x7F800000#32)))
          (constantI Cert.Pre_finite_inputs.S_ 1 1#1) hr h0 ix0 = 1#1) : AllReal x := by
  intro i
  have e := Host.reduce_andi_all _ _ hr h0 ix0 h i
  have e' : Ideal.cmp .olt (max (x i) (-(x i))) (Ideal.ofBits .f32 0x7F800000#32) = 1#1 := e
  rw [ofBits_f32_inf] at e'
  exact real_of_abs_lt_top (x i) e'

theorem row0_apply (x1 : IVec Cert.Pre_finite_inputs.S2x800000 32)
    (hs : Cert.Pre_finite_inputs.S2x800000.Slices ![0, 0] Cert.Pre_finite_inputs.S1x800000)
    (hc : Cert.Pre_finite_inputs.S1x800000.ShapeCasts Cert.Pre_finite_inputs.S800000) (e : Fin 800000) :
    shapeCast Cert.Pre_finite_inputs.S800000 (extractStridedSlice Cert.Pre_finite_inputs.S1x800000 ![0, 0] x1 hs) hc (ix1 e)
      = x1 (ix2 (0 : Fin 2) e) := by
  refine (shapeCast_dropUnit_apply ![800000] _ hc (ix1 e)).trans ?_
  refine extractStridedSlice_apply _ x1 hs _ (ix2 (0 : Fin 2) e) (fun a => ?_)
  match a with
  | ⟨0, _⟩ => rfl
  | ⟨1, _⟩ => exact (Nat.zero_add _).symm

variable [Cert.Pre_finite_inputs.Facts]

/-- The precondition is a conjunction of twelve tests: eleven arrays of reals, and row 0 of the edge table in [0, 50000). -/
theorem pre_facts (x0 x1 x2 x3 x4 x5 x6 x7 x8 x9 x10 x11 x12)
    (h : Cert.Pre_finite_inputs.fn (F := Ideal) x0 x1 x2 x3 x4 x5 x6 x7 x8 x9 x10 x11 x12 = (fun _ => 1#1)) :
    AllReal x0 ∧ AllReal x3 ∧ AllReal x4 ∧ AllReal x5 ∧ AllReal x6 ∧ AllReal x7 ∧ AllReal x8 ∧ AllReal x9
      ∧ AllReal x10 ∧ AllReal x11 ∧ AllReal x12
      ∧ ∀ e : Fin 800000, 0 ≤ (x1 (ix2 (0 : Fin 2) e)).toInt ∧ (x1 (ix2 (0 : Fin 2) e)).toInt < 50000 := by
  have e := congrFun h ix0
  dsimp only [Cert.Pre_finite_inputs.fn, Cert.Pre_finite_inputs.fn_part1, Cert.Pre_finite_inputs.fn_part2,
    Cert.Pre_finite_inputs.fn_part3] at e
  obtain ⟨e, h1⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  refine ⟨allReal_of_all x0 _ _ _ h0, allReal_of_all x3 _ _ _ h3, allReal_of_all x4 _ _ _ h4,
    allReal_of_all x5 _ _ _ h5, allReal_of_all x6 _ _ _ h6, allReal_of_all x7 _ _ _ h7, allReal_of_all x8 _ _ _ h8,
    allReal_of_all x9 _ _ _ h9, allReal_of_all x10 _ _ _ h10, allReal_of_all x11 _ _ _ h11,
    allReal_of_all x12 _ _ _ h12, fun k => ?_⟩
  have q := Host.reduce_andi_all _ _ _ _ ix0 h1 (ix1 k)
  obtain ⟨q0, q1⟩ := IntOp.andi_eq_one.1 q
  have r0 : IntOp.cmpi .sge (x1 (ix2 (0 : Fin 2) k)) 0#32 = 1#1 := (congrArg (fun w => IntOp.cmpi .sge w 0#32) (row0_apply x1 _ _ k)).symm.trans q0
  have r1 : IntOp.cmpi .slt (x1 (ix2 (0 : Fin 2) k)) 50000#32 = 1#1 := (congrArg (fun w => IntOp.cmpi .slt w 50000#32) (row0_apply x1 _ _ k)).symm.trans q1
  exact ⟨IntOp.cmpi_sge.1 r0, IntOp.cmpi_slt.1 r1⟩

theorem src_range (x0 x1 x2 x3 x4 x5 x6 x7 x8 x9 x10 x11 x12)
    (h : Cert.Pre_finite_inputs.fn (F := Ideal) x0 x1 x2 x3 x4 x5 x6 x7 x8 x9 x10 x11 x12 = (fun _ => 1#1)) (e : Fin 800000) : 0 ≤ (x1 (ix2 (0 : Fin 2) e)).toInt ∧ (x1 (ix2 (0 : Fin 2) e)).toInt < 50000 :=
  (pre_facts x0 x1 x2 x3 x4 x5 x6 x7 x8 x9 x10 x11 x12 h).2.2.2.2.2.2.2.2.2.2.2 e

end Cert.KernelIdeal.Val

end
-- ==== Proof.Value.Chain0.lean ====
import proofs.«427753_j34041910788666_1_alg».proof.Proof.KernelIdeal.Fold
import proofs.«427753_j34041910788666_1_alg».proof.Proof.RefRun
import Idealize.ShloMosaic.Lib.StableHlo.Run

noncomputable section

namespace Cert.KernelIdeal.Val

open Idealize.ShloMosaic Idealize.ShloMosaic.TcCoe
open Idealize.SL Idealize.SL.Sem
open Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

theorem w1_src : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results_simp
  rfl

theorem w1_dst : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

theorem w1_invdeg : W1 m ρ c (Proc.devRef .tc main_v12)
    = Cert.ReferenceIdeal.Read.val_main_v12 (F := Ideal) (m ((c : Thread nD τ).loc main_arg1)) := by
  show StableHlo.after hostOps0 (W0 m ρ c) (Proc.devRef .tc main_v12) = _
  after_results_simp
  rfl

theorem w1_norm : W1 m ρ c (Proc.devRef .tc main_v27)
    = Cert.ReferenceIdeal.Read.val_main_v27 (F := Ideal) (m ((c : Thread nD τ).loc main_arg1)) := by
  show StableHlo.after hostOps0 (W0 m ρ c) (Proc.devRef .tc main_v27) = _
  after_results_simp
  rfl

/-- A buffer the first stretch of host operations does not write still holds its entry contents. -/
theorem w1_arg (b : Ref sig .tc) (hb : b ∉ hostOps0_W) :
    W1 m ρ c (Proc.devRef .tc b) = m ((c : Thread nD τ).loc b) :=
  (StableHlo.after_of_writes_sub hostOps0 _ hostOps0_writes hb).trans rfl

theorem w1_arg0 : W1 m ρ c (Proc.devRef .tc main_arg0) = m ((c : Thread nD τ).loc main_arg0) :=
  w1_arg m ρ c main_arg0 (by decide)
theorem w1_arg3 : W1 m ρ c (Proc.devRef .tc main_arg3) = m ((c : Thread nD τ).loc main_arg3) :=
  w1_arg m ρ c main_arg3 (by decide)
theorem w1_arg4 : W1 m ρ c (Proc.devRef .tc main_arg4) = m ((c : Thread nD τ).loc main_arg4) :=
  w1_arg m ρ c main_arg4 (by decide)
theorem w1_arg5 : W1 m ρ c (Proc.devRef .tc main_arg5) = m ((c : Thread nD τ).loc main_arg5) :=
  w1_arg m ρ c main_arg5 (by decide)
theorem w1_arg6 : W1 m ρ c (Proc.devRef .tc main_arg6) = m ((c : Thread nD τ).loc main_arg6) :=
  w1_arg m ρ c main_arg6 (by decide)
theorem w1_arg7 : W1 m ρ c (Proc.devRef .tc main_arg7) = m ((c : Thread nD τ).loc main_arg7) :=
  w1_arg m ρ c main_arg7 (by decide)
theorem w1_arg8 : W1 m ρ c (Proc.devRef .tc main_arg8) = m ((c : Thread nD τ).loc main_arg8) :=
  w1_arg m ρ c main_arg8 (by decide)
theorem w1_arg9 : W1 m ρ c (Proc.devRef .tc main_arg9) = m ((c : Thread nD τ).loc main_arg9) :=
  w1_arg m ρ c main_arg9 (by decide)
theorem w1_arg10 : W1 m ρ c (Proc.devRef .tc main_arg10) = m ((c : Thread nD τ).loc main_arg10) :=
  w1_arg m ρ c main_arg10 (by decide)

/-- The buffers fixed once the first stretch of host operations has run: edge endpoints, reciprocal degrees, edge weights, arguments. -/
abbrev KEEP : List (Ref sig .tc) :=
  [main_v1, main_v3, main_v12, main_v27, main_arg0, main_arg1, main_arg2, main_arg3, main_arg4, main_arg5, main_arg6,
   main_arg7, main_arg8, main_arg9, main_arg10, main_arg11, main_arg12]

theorem keep_h1 : ∀ b ∈ KEEP, b ∉ hostOps1_W := by decide
theorem keep_h1_1 : ∀ b ∈ KEEP, b ∉ hostOps1_1_W := by decide
theorem keep_h3 : ∀ b ∈ KEEP, b ∉ hostOps3_W := by decide
theorem keep_h3_1 : ∀ b ∈ KEEP, b ∉ hostOps3_1_W := by decide
theorem keep_h5 : ∀ b ∈ KEEP, b ∉ hostOps5_W := by decide
theorem keep_h5_1 : ∀ b ∈ KEEP, b ∉ hostOps5_1_W := by decide
theorem keep_h7 : ∀ b ∈ KEEP, b ∉ hostOps7_W := by decide

theorem keep_r0 : ∀ b ∈ KEEP, b ≠ main_arg0 → b ≠ main_arg3 → ∀ w, Pipeline.arrRef spec0 w ≠ b := by decide
theorem keep_r1 : ∀ b ∈ KEEP, ∀ w, Pipeline.arrRef spec1 w ≠ b := by decide
theorem keep_r2 : ∀ b ∈ KEEP, b ≠ main_arg5 → ∀ w, Pipeline.arrRef spec2 w ≠ b := by decide
theorem keep_r3 : ∀ b ∈ KEEP, ∀ w, Pipeline.arrRef spec3 w ≠ b := by decide
theorem keep_r4 : ∀ b ∈ KEEP, b ≠ main_arg7 → ∀ w, Pipeline.arrRef spec4 w ≠ b := by decide
theorem keep_r5 : ∀ b ∈ KEEP, ∀ w, Pipeline.arrRef spec5 w ≠ b := by decide
theorem keep_r6 : ∀ b ∈ KEEP, b ≠ main_arg9 → ∀ w, Pipeline.arrRef spec6 w ≠ b := by decide

/-- A host stretch writes none of them; a region's windows meet them only at an input it hands back unchanged. -/
theorem keep2 (b : Ref sig .tc) (hb : b ∈ KEEP) :
    W2 m ρ c (Proc.devRef .tc b) = W1 m ρ c (Proc.devRef .tc b) := by
  by_cases h0 : b = main_arg0
  · subst h0
    exact (W2_arr m ρ c 0).trans (((dat0 (V1 m ρ) c).arrAt_in 0 rfl _).trans (A_eq0 (V1 m ρ) c 0))
  by_cases h1 : b = main_arg3
  · subst h1
    exact (W2_arr m ρ c 1).trans (((dat0 (V1 m ρ) c).arrAt_in 1 rfl _).trans (A_eq0 (V1 m ρ) c 1))
  exact W2_of_ne m ρ c b (keep_r0 b hb h0 h1)
theorem keep3 (b : Ref sig .tc) (hb : b ∈ KEEP) :
    W3 m ρ c (Proc.devRef .tc b) = W1 m ρ c (Proc.devRef .tc b) :=
  (StableHlo.after_of_writes_sub hostOps1 _ hostOps1_writes (keep_h1 b hb)).trans (keep2 m ρ c b hb)
theorem keep5 (b : Ref sig .tc) (hb : b ∈ KEEP) :
    W5 m ρ c (Proc.devRef .tc b) = W1 m ρ c (Proc.devRef .tc b) :=
  (W5_of_ne m ρ c b (keep_r1 b hb)).trans
    ((StableHlo.after_of_writes_sub hostOps1_1 _ hostOps1_1_writes (keep_h1_1 b hb)).trans (keep3 m ρ c b hb))
theorem keep6 (b : Ref sig .tc) (hb : b ∈ KEEP) :
    W6 m ρ c (Proc.devRef .tc b) = W1 m ρ c (Proc.devRef .tc b) := by
  by_cases h0 : b = main_arg5
  · subst h0
    exact ((W6_arr m ρ c 1).trans (((dat2 (V5 m ρ) c).arrAt_in 1 rfl _).trans (A_eq2 (V5 m ρ) c 1))).trans (keep5 m ρ c main_arg5 hb)
  exact (W6_of_ne m ρ c b (keep_r2 b hb h0)).trans (keep5 m ρ c b hb)
theorem keep7 (b : Ref sig .tc) (hb : b ∈ KEEP) :
    W7 m ρ c (Proc.devRef .tc b) = W1 m ρ c (Proc.devRef .tc b) :=
  (StableHlo.after_of_writes_sub hostOps3 _ hostOps3_writes (keep_h3 b hb)).trans (keep6 m ρ c b hb)
theorem keep9 (b : Ref sig .tc) (hb : b ∈ KEEP) :
    W9 m ρ c (Proc.devRef .tc b) = W1 m ρ c (Proc.devRef .tc b) :=
  (W9_of_ne m ρ c b (keep_r3 b hb)).trans
    ((StableHlo.after_of_writes_sub hostOps3_1 _ hostOps3_1_writes (keep_h3_1 b hb)).trans (keep7 m ρ c b hb))
theorem keep10 (b : Ref sig .tc) (hb : b ∈ KEEP) :
    W10 m ρ c (Proc.devRef .tc b) = W1 m ρ c (Proc.devRef .tc b) := by
  by_cases h0 : b = main_arg7
  · subst h0
    exact ((W10_arr m ρ c 1).trans (((dat4 (V9 m ρ) c).arrAt_in 1 rfl _).trans (A_eq4 (V9 m ρ) c 1))).trans (keep9 m ρ c main_arg7 hb)
  exact (W10_of_ne m ρ c b (keep_r4 b hb h0)).trans (keep9 m ρ c b hb)
theorem keep11 (b : Ref sig .tc) (hb : b ∈ KEEP) :
    W11 m ρ c (Proc.devRef .tc b) = W1 m ρ c (Proc.devRef .tc b) :=
  (StableHlo.after_of_writes_sub hostOps5 _ hostOps5_writes (keep_h5 b hb)).trans (keep10 m ρ c b hb)
theorem keep13 (b : Ref sig .tc) (hb : b ∈ KEEP) :
    W13 m ρ c (Proc.devRef .tc b) = W1 m ρ c (Proc.devRef .tc b) :=
  (W13_of_ne m ρ c b (keep_r5 b hb)).trans
    ((StableHlo.after_of_writes_sub hostOps5_1 _ hostOps5_1_writes (keep_h5_1 b hb)).trans (keep11 m ρ c b hb))
theorem keep14 (b : Ref sig .tc) (hb : b ∈ KEEP) :
    W14 m ρ c (Proc.devRef .tc b) = W1 m ρ c (Proc.devRef .tc b) := by
  by_cases h0 : b = main_arg9
  · subst h0
    exact ((W14_arr m ρ c 1).trans (((dat6 (V13 m ρ) c).arrAt_in 1 rfl _).trans (A_eq6 (V13 m ρ) c 1))).trans (keep13 m ρ c main_arg9 hb)
  exact (W14_of_ne m ρ c b (keep_r6 b hb h0)).trans (keep13 m ρ c b hb)
theorem keep15 (b : Ref sig .tc) (hb : b ∈ KEEP) :
    W15 m ρ c (Proc.devRef .tc b) = W1 m ρ c (Proc.devRef .tc b) :=
  (StableHlo.after_of_writes_sub hostOps7 _ hostOps7_writes (keep_h7 b hb)).trans (keep14 m ρ c b hb)

end Cert.KernelIdeal.Val
end
-- ==== Proof.Value.ValT.lean ====
import proofs.«427753_j34041910788666_1_alg».proof.Proof.KernelIdeal.Reg0
import proofs.«427753_j34041910788666_1_alg».proof.Proof.KernelIdeal.Reg2
import proofs.«427753_j34041910788666_1_alg».proof.Proof.KernelIdeal.Reg4
import proofs.«427753_j34041910788666_1_alg».proof.Proof.KernelIdeal.Reg6
import proofs.«427753_j34041910788666_1_alg».proof.Proof.Gen.ReferenceIdeal
import Idealize.ShloMosaic.Lib.Pipeline.Value
import Idealize.ShloMosaic.Lib.KernelVsHost
import Idealize.ShloMosaic.Lib.StackMember

noncomputable section

namespace Cert.KernelIdeal.Val

open Idealize.ShloMosaic Idealize.ShloMosaic.TcCoe Idealize.SL.Sem Idealize.ShloMosaic.ValueIdx
open Idealize.ShloMosaic.StackMember (dotGeneral_plain_apply)
open Cert.KernelIdeal Cert.KernelIdeal.Gen Cert.KernelIdeal.Hand

-- Block indices at step T: row block T of the left factor and of the product, the one block of the right factor.
private abbrev RowBlocks (I0 I1 I2 : Fin 2 → Nat) (T : Nat) : Prop :=
  I0 0 = T ∧ I0 1 = 0 ∧ I1 0 = 0 ∧ I1 1 = 0 ∧ I2 0 = T ∧ I2 1 = 0

-- A row block of a product from zero is that row block of the whole product: both entries are one sum over the contracted coordinate.
private theorem blockProduct {M m k n : Nat} {φ₁ φ₂ : FTy}
    (d : DotDims ⟨2, ![m, k]⟩ ⟨2, ![k, n]⟩ ⟨2, ![m, n]⟩) (hd : d = DotDims.plain m k n)
    (D : DotDims ⟨2, ![M, k]⟩ ⟨2, ![k, n]⟩ ⟨2, ![M, n]⟩) (hD : D = DotDims.plain M k n)
    (A : FVec Ideal ⟨2, ![M, k]⟩ .f32) (B : FVec Ideal ⟨2, ![k, n]⟩ .f32)
    (x0 : FVec Ideal ⟨2, ![m, k]⟩ φ₁) (x1 : FVec Ideal ⟨2, ![k, n]⟩ φ₂)
    (eA : (⟨2, ![m, k]⟩ : Shape).Idx → (⟨2, ![M, k]⟩ : Shape).Idx)
    (eB : (⟨2, ![k, n]⟩ : Shape).Idx → (⟨2, ![k, n]⟩ : Shape).Idx)
    (eO : (⟨2, ![m, n]⟩ : Shape).Idx → (⟨2, ![M, n]⟩ : Shape).Idx)
    (h0 : ∀ y, x0 y = A (eA y)) (h1 : ∀ y, x1 y = B (eB y)) (I0 I1 I2 : Fin 2 → Nat) (T : Nat) (hI : RowBlocks I0 I1 I2 T)
    (hA : ∀ y a, (eA y a).val = I0 a * ![m, k] a + 1 * (y a).val) (hB : ∀ y a, (eB y a).val = I1 a * ![k, n] a + 1 * (y a).val)
    (hO : ∀ y a, (eO y a).val = I2 a * ![m, n] a + 1 * (y a).val) (j : (⟨2, ![m, n]⟩ : Shape).Idx) :
    matmul d none x0 x1 (constant ⟨2, ![m, n]⟩ .f32 0x00000000#32) j = Host.dotGeneral D none A B (eO j) := by
  subst hd hD
  obtain ⟨e00, e01, e10, e11, e20, e21⟩ := hI
  have hO0 := hO j 0
  have hO1 := hO j 1
  obtain ⟨a, b, rfl⟩ : ∃ a b, j = ix2 a b := ⟨j 0, j 1, eq_ix2 j⟩
  obtain ⟨r, s, hi⟩ : ∃ r s, eO (ix2 a b) = ix2 r s := ⟨_, _, eq_ix2 _⟩
  rw [hi] at hO0 hO1 ⊢
  rw [matmul_zero_eq_dotGeneral, dotGeneral_plain_apply, dotGeneral_plain_apply]
  refine Finset.sum_congr rfl fun c _ => ?_
  rw [h0, h1]
  refine congrArg₂ (· * ·) (congrArg A (funext fun x => Fin.ext ?_)) (congrArg B (funext fun x => Fin.ext ?_))
  · rw [hA]; match x with
    | ⟨0, _⟩ => show I0 0 * m + 1 * a.val = r.val; rw [e00, show r.val = I2 0 * m + 1 * a.val from hO0, e20]
    | ⟨1, _⟩ => show I0 1 * k + 1 * c.val = c.val; rw [e01]; omega
  · rw [hB]; match x with
    | ⟨0, _⟩ => show I1 0 * k + 1 * c.val = c.val; rw [e10]; omega
    | ⟨1, _⟩ => show I1 1 * n + 1 * b.val = s.val; rw [e11, show s.val = I2 1 * n + 1 * b.val from hO1, e21]

-- Row i of an array cut into blocks of m rows lies in block i / m.
private theorem rowCover {M n m : Nat} (hm : 0 < m) (i : (⟨2, ![M, n]⟩ : Shape).Idx) (off I : Fin 2 → Nat)
    (hoff : ∀ a, off a = I a * ![m, n] a) (h0 : I 0 = (i 0).val / m) (h1 : I 1 = 0) (a : Fin 2) :
    off a ≤ (i a).val ∧ (i a).val < off a + ![m, n] a := by
  have hi1 := idx2_lt1 i
  rw [hoff]; match a with
  | ⟨0, _⟩ => show I 0 * m ≤ (i 0).val ∧ (i 0).val < I 0 * m + m; rw [h0]; exact ⟨Nat.div_mul_le_self _ _, Nat.lt_div_mul_add hm⟩
  | ⟨1, _⟩ => show I 1 * n ≤ (i 1).val ∧ (i 1).val < I 1 * n + n; rw [h1]; omega

private theorem zeroOffsets : (![0, 0] : Fin 2 → Nat) = fun _ => 0 := funext fun a => by fin_cases a <;> rfl

variable (V : (c : Dev nD) → (b : Ref sig .tc) → Buf (Elt Ideal) ((c : Thread nD τ).loc b)) (c : Dev nD)

private theorem blockIndex0 : ∀ t : Fin cfg0.N, RowBlocks (win0_0.index t) (win0_1.index t) (win0_2.index t) t.val :=
  (by decide +kernel : ∀ t : Fin grid0.N, _)

theorem arrT0 :
    (Cert.KernelIdeal.Hand.dat0 (F := Ideal) V c).arrAt 2 cfg0.N
      = Host.dotGeneral (F := Ideal) (φ₁ := .f32) (φ₂ := .f32) Cert.ReferenceIdeal.dot_S50000x5_S5x32_S50000x32_1_0_0_1_n_n none (V c main_arg0) (V c main_arg3) := by
  refine (dat0 (F := Ideal) V c).arrAt_eq_of_cover 2 _ (fun t _ => ?_) (fun i => ?_)
  · show (cfg0.win 2).cut (grid0.coords t) ((dat0 (F := Ideal) V c).after 2 t) = _
    rw [show (dat0 (F := Ideal) V c).after 2 t = out0_2 (iblk0 V c 0 t) (iblk0 V c 1 t) by dsimp only [dat0]]
    unfold out0_2 k0_pay1
    rw [View.canon_unit_zero zeroOffsets]
    simp only [View.ld_unit_zero (S := S2000x5) zeroOffsets, View.ld_unit_zero (S := S5x32) zeroOffsets, shapeCast_self]
    exact funext (blockProduct _ rfl _ rfl (V c main_arg0) (V c main_arg3) _ _ ((cfg0.win 0).blk t).view.emb ((cfg0.win 1).blk t).view.emb
      ((cfg0.win 2).blk t).view.emb (fun _ => rfl) (fun _ => rfl) _ _ _ _ (blockIndex0 t) (fun _ _ => rfl) (fun _ _ => rfl) (fun _ _ => rfl))
  · have hlt : (i 0).val / 2000 < cfg0.N := by have := idx2_lt0 i; show _ < grid0.N; rw [N_0]; omega
    obtain ⟨-, -, -, -, e20, e21⟩ := blockIndex0 ⟨(i 0).val / 2000, hlt⟩
    refine ⟨⟨(i 0).val / 2000, hlt⟩, flush0_2 _, ?_⟩
    show i ∈ ((View.whole main_v28).slice (win0_2.rect ⟨(i 0).val / 2000, hlt⟩)).set
    rw [View.set_slice_whole, Rect.mem_set_unit]
    exact rowCover (by decide) i _ (win0_2.index ⟨(i 0).val / 2000, hlt⟩) (fun _ => rfl) e20 e21

private theorem blockIndex2 : ∀ t : Fin cfg2.N, RowBlocks (win2_0.index t) (win2_1.index t) (win2_2.index t) t.val :=
  (by decide +kernel : ∀ t : Fin grid2.N, _)

theorem arrT2 :
    (Cert.KernelIdeal.Hand.dat2 (F := Ideal) V c).arrAt 2 cfg2.N
      = Host.dotGeneral (F := Ideal) (φ₁ := .f32) (φ₂ := .f32) Cert.ReferenceIdeal.dot_S50000x32_S32x64_S50000x64_1_0_0_1_n_n none (V c main_v38) (V c main_arg5) := by
  refine (dat2 (F := Ideal) V c).arrAt_eq_of_cover 2 _ (fun t _ => ?_) (fun i => ?_)
  · show (cfg2.win 2).cut (grid2.coords t) ((dat2 (F := Ideal) V c).after 2 t) = _
    rw [show (dat2 (F := Ideal) V c).after 2 t = out2_2 (iblk2 V c 0 t) (iblk2 V c 1 t) by dsimp only [dat2]]
    unfold out2_2 k2_pay1
    rw [View.canon_unit_zero zeroOffsets]
    simp only [View.ld_unit_zero (S := S2000x32) zeroOffsets, View.ld_unit_zero (S := S32x64) zeroOffsets, shapeCast_self]
    exact funext (blockProduct _ rfl _ rfl (V c main_v38) (V c main_arg5) _ _ ((cfg2.win 0).blk t).view.emb ((cfg2.win 1).blk t).view.emb
      ((cfg2.win 2).blk t).view.emb (fun _ => rfl) (fun _ => rfl) _ _ _ _ (blockIndex2 t) (fun _ _ => rfl) (fun _ _ => rfl) (fun _ _ => rfl))
  · have hlt : (i 0).val / 2000 < cfg2.N := by have := idx2_lt0 i; show _ < grid2.N; rw [N_2]; omega
    obtain ⟨-, -, -, -, e20, e21⟩ := blockIndex2 ⟨(i 0).val / 2000, hlt⟩
    refine ⟨⟨(i 0).val / 2000, hlt⟩, flush2_2 _, ?_⟩
    show i ∈ ((View.whole main_v39).slice (win2_2.rect ⟨(i 0).val / 2000, hlt⟩)).set
    rw [View.set_slice_whole, Rect.mem_set_unit]
    exact rowCover (by decide) i _ (win2_2.index ⟨(i 0).val / 2000, hlt⟩) (fun _ => rfl) e20 e21

private theorem blockIndex4 : ∀ t : Fin cfg4.N, RowBlocks (win4_0.index t) (win4_1.index t) (win4_2.index t) t.val :=
  (by decide +kernel : ∀ t : Fin grid4.N, _)

theorem arrT4 :
    (Cert.KernelIdeal.Hand.dat4 (F := Ideal) V c).arrAt 2 cfg4.N
      = Host.dotGeneral (F := Ideal) (φ₁ := .f32) (φ₂ := .f32) Cert.ReferenceIdeal.dot_S50000x64_S64x128_S50000x128_1_0_0_1_n_n none (V c main_v49) (V c main_arg7) := by
  refine (dat4 (F := Ideal) V c).arrAt_eq_of_cover 2 _ (fun t _ => ?_) (fun i => ?_)
  · show (cfg4.win 2).cut (grid4.coords t) ((dat4 (F := Ideal) V c).after 2 t) = _
    rw [show (dat4 (F := Ideal) V c).after 2 t = out4_2 (iblk4 V c 0 t) (iblk4 V c 1 t) by dsimp only [dat4]]
    unfold out4_2 k4_pay1
    rw [View.canon_unit_zero zeroOffsets]
    simp only [View.ld_unit_zero (S := S2000x64) zeroOffsets, View.ld_unit_zero (S := S64x128) zeroOffsets, shapeCast_self]
    exact funext (blockProduct _ rfl _ rfl (V c main_v49) (V c main_arg7) _ _ ((cfg4.win 0).blk t).view.emb ((cfg4.win 1).blk t).view.emb
      ((cfg4.win 2).blk t).view.emb (fun _ => rfl) (fun _ => rfl) _ _ _ _ (blockIndex4 t) (fun _ _ => rfl) (fun _ _ => rfl) (fun _ _ => rfl))
  · have hlt : (i 0).val / 2000 < cfg4.N := by have := idx2_lt0 i; show _ < grid4.N; rw [N_4]; omega
    obtain ⟨-, -, -, -, e20, e21⟩ := blockIndex4 ⟨(i 0).val / 2000, hlt⟩
    refine ⟨⟨(i 0).val / 2000, hlt⟩, flush4_2 _, ?_⟩
    show i ∈ ((View.whole main_v50).slice (win4_2.rect ⟨(i 0).val / 2000, hlt⟩)).set
    rw [View.set_slice_whole, Rect.mem_set_unit]
    exact rowCover (by decide) i _ (win4_2.index ⟨(i 0).val / 2000, hlt⟩) (fun _ => rfl) e20 e21

private theorem blockIndex6 : ∀ t : Fin cfg6.N, RowBlocks (win6_0.index t) (win6_1.index t) (win6_2.index t) t.val :=
  (by decide +kernel : ∀ t : Fin grid6.N, _)

theorem arrT6 :
    (Cert.KernelIdeal.Hand.dat6 (F := Ideal) V c).arrAt 2 cfg6.N
      = Host.dotGeneral (F := Ideal) (φ₁ := .f32) (φ₂ := .f32) Cert.ReferenceIdeal.dot_S50000x128_S128x256_S50000x256_1_0_0_1_n_n none (V c main_v60) (V c main_arg9) := by
  refine (dat6 (F := Ideal) V c).arrAt_eq_of_cover 2 _ (fun t _ => ?_) (fun i => ?_)
  · show (cfg6.win 2).cut (grid6.coords t) ((dat6 (F := Ideal) V c).after 2 t) = _
    rw [show (dat6 (F := Ideal) V c).after 2 t = out6_2 (iblk6 V c 0 t) (iblk6 V c 1 t) by dsimp only [dat6]]
    unfold out6_2 k6_pay1
    rw [View.canon_unit_zero zeroOffsets]
    simp only [View.ld_unit_zero (S := S2000x128) zeroOffsets, View.ld_unit_zero (S := S128x256) zeroOffsets, shapeCast_self]
    exact funext (blockProduct _ rfl _ rfl (V c main_v60) (V c main_arg9) _ _ ((cfg6.win 0).blk t).view.emb ((cfg6.win 1).blk t).view.emb
      ((cfg6.win 2).blk t).view.emb (fun _ => rfl) (fun _ => rfl) _ _ _ _ (blockIndex6 t) (fun _ _ => rfl) (fun _ _ => rfl) (fun _ _ => rfl))
  · have hlt : (i 0).val / 2000 < cfg6.N := by have := idx2_lt0 i; show _ < grid6.N; rw [N_6]; omega
    obtain ⟨-, -, -, -, e20, e21⟩ := blockIndex6 ⟨(i 0).val / 2000, hlt⟩
    refine ⟨⟨(i 0).val / 2000, hlt⟩, flush6_2 _, ?_⟩
    show i ∈ ((View.whole main_v61).slice (win6_2.rect ⟨(i 0).val / 2000, hlt⟩)).set
    rw [View.set_slice_whole, Rect.mem_set_unit]
    exact rowCover (by decide) i _ (win6_2.index ⟨(i 0).val / 2000, hlt⟩) (fun _ => rfl) e20 e21

end Cert.KernelIdeal.Val

end
-- ==== Proof.Value.ValC.lean ====
import proofs.«427753_j34041910788666_1_alg».proof.Proof.KernelIdeal.Reg1
import proofs.«427753_j34041910788666_1_alg».proof.Proof.KernelIdeal.Reg3
import proofs.«427753_j34041910788666_1_alg».proof.Proof.KernelIdeal.Reg5
import proofs.«427753_j34041910788666_1_alg».proof.Proof.KernelIdeal.Reg7
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- The combine step at node `i 0`, feature `i 1`, any width: a + t · d(node) + b(feature), cut off below at zero. -/
def combined {w : ℕ} (A T : (⟨2, ![50000, w]⟩ : Shape).Idx → EReal) (D : S50000x1.Idx → EReal)
    (B : (⟨2, ![1, w]⟩ : Shape).Idx → EReal) : (⟨2, ![50000, w]⟩ : Shape).Idx → EReal :=
  fun i => max ((A i + T i * D (ix2 (i 0) (0 : Fin 1))) + B (ix2 (0 : Fin 1) (i 1))) (0 : EReal)

/-- Broadcasting a column along the second axis repeats, in each row, that row's entry. -/
theorem column_spread {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ => show p.val = if a = 1 then 0 else p.val; have := p.isLt; split <;> omega
  | ⟨1, _⟩ => rfl

/-- Block indices of five windows at row block `n`: node-indexed inputs and output at `(n, 0)`, the bias row at `(0, 0)`. -/
abbrev RowBlocks (n : ℕ) (o0 o1 o2 o3 o4 : Fin 2 → ℕ) : Prop :=
  o0 0 = n ∧ o0 1 = 0 ∧ o1 0 = n ∧ o1 1 = 0 ∧ o2 0 = n ∧ o2 1 = 0 ∧ o3 0 = 0 ∧ o3 1 = 0 ∧ o4 0 = n ∧ o4 1 = 0

/-- The body at an index: first block plus second times the row's column entry, plus the row's entry, cut off below at zero. -/
theorem pay_apply {w : ℕ} (x0 x1 : Vec Ideal ⟨2, ![2000, w]⟩ .f32) (x2 : Vec Ideal S2000x1 .f32) (x3 : Vec Ideal ⟨2, ![1, w]⟩ .f32)
    (hc : (⟨2, ![2000, 1]⟩ : Shape).Broadcasts ⟨2, ![2000, w]⟩) (hr : (⟨2, ![1, w]⟩ : Shape).Broadcasts ⟨2, ![2000, w]⟩)
    (j : (⟨2, ![2000, w]⟩ : Shape).Idx) :
    maximumf (addf (addf x0 (mulf x1 (broadcastTo ⟨2, ![2000, w]⟩ x2 hc))) (broadcastTo ⟨2, ![2000, w]⟩ x3 hr))
        (broadcast ⟨2, ![2000, w]⟩ (Scalar.ofBits (F := Ideal) .f32 0x00000000#32)) j
      = max ((x0 j + x1 j * x2 (ix2 (j 0) (0 : Fin 1))) + x3 (ix2 (0 : Fin 1) (j 1))) (0 : EReal) := by
  obtain ⟨p, q, rfl⟩ : ∃ (p : Fin 2000) (q : Fin w), j = ix2 p q := ⟨j 0, j 1, eq_ix2 j⟩
  rw [maximumf_apply, addf_apply, addf_apply, mulf_apply, broadcast_apply, column_spread, broadcastTo_1b_ab_apply,
    show (Scalar.ofBits (F := Ideal) .f32 0x00000000#32) = (0 : EReal) from Ideal.ofBits_zero_f32]
  rfl

/-- Blocks read off the arrays at one row block give, at `j`, the combine step of the arrays at `j`'s place in the output. -/
theorem combine_blocks {w n : ℕ} {o0 o1 o2 o3 o4 : Fin 2 → ℕ} (ho : RowBlocks n o0 o1 o2 o3 o4)
    {A T : (⟨2, ![50000, w]⟩ : Shape).Idx → EReal} {D : S50000x1.Idx → EReal} {B : (⟨2, ![1, w]⟩ : Shape).Idx → EReal}
    {x0 x1 : Vec Ideal ⟨2, ![2000, w]⟩ .f32} {x2 : Vec Ideal S2000x1 .f32} {x3 : Vec Ideal ⟨2, ![1, w]⟩ .f32}
    {hc : (⟨2, ![2000, 1]⟩ : Shape).Broadcasts ⟨2, ![2000, w]⟩} {hr : (⟨2, ![1, w]⟩ : Shape).Broadcasts ⟨2, ![2000, w]⟩}
    {e0 e1 e4 : (⟨2, ![2000, w]⟩ : Shape).Idx → (⟨2, ![50000, w]⟩ : Shape).Idx} {e2 : S2000x1.Idx → S50000x1.Idx}
    {e3 : (⟨2, ![1, w]⟩ : Shape).Idx → (⟨2, ![1, w]⟩ : Shape).Idx}
    (he0 : ∀ y a, (e0 y a : ℕ) = o0 a * ![2000, w] a + y a) (he1 : ∀ y a, (e1 y a : ℕ) = o1 a * ![2000, w] a + y a)
    (he2 : ∀ y a, (e2 y a : ℕ) = o2 a * ![2000, 1] a + y a) (he3 : ∀ y a, (e3 y a : ℕ) = o3 a * ![1, w] a + y a)
    (he4 : ∀ y a, (e4 y a : ℕ) = o4 a * ![2000, w] a + y a)
    (h0 : ∀ y, x0 y = A (e0 y)) (h1 : ∀ y, x1 y = T (e1 y)) (h2 : ∀ y, x2 y = D (e2 y)) (h3 : ∀ y, x3 y = B (e3 y))
    (j : (⟨2, ![2000, w]⟩ : Shape).Idx) :
    maximumf (addf (addf x0 (mulf x1 (broadcastTo ⟨2, ![2000, w]⟩ x2 hc))) (broadcastTo ⟨2, ![2000, w]⟩ x3 hr))
        (broadcast ⟨2, ![2000, w]⟩ (Scalar.ofBits (F := Ideal) .f32 0x00000000#32)) j
      = combined A T D B (e4 j) := by
  obtain ⟨a00, a01, a10, a11, a20, a21, a30, a31, a40, a41⟩ := ho
  have b00 : (e0 j 0 : ℕ) = o0 0 * 2000 + j 0 := he0 j 0
  have b01 : (e0 j 1 : ℕ) = o0 1 * w + j 1 := he0 j 1
  have b10 : (e1 j 0 : ℕ) = o1 0 * 2000 + j 0 := he1 j 0
  have b11 : (e1 j 1 : ℕ) = o1 1 * w + j 1 := he1 j 1
  have b2 : (e2 (ix2 (j 0) (0 : Fin 1)) 0 : ℕ) = o2 0 * 2000 + j 0 := he2 _ 0
  have b3 : (e3 (ix2 (0 : Fin 1) (j 1)) 1 : ℕ) = o3 1 * w + j 1 := he3 _ 1
  have b40 : (e4 j 0 : ℕ) = o4 0 * 2000 + j 0 := he4 j 0
  have b41 : (e4 j 1 : ℕ) = o4 1 * w + j 1 := he4 j 1
  simp only [a01, a11, a31, a41, Nat.zero_mul, Nat.zero_add] at b01 b11 b3 b41
  have E0 : e0 j = e4 j := Shape.idx_ext₂ (by omega) (by omega)
  have E1 : e1 j = e4 j := Shape.idx_ext₂ (by omega) (by omega)
  have E2 : e2 (ix2 (j 0) (0 : Fin 1)) = ix2 (e4 j 0) (0 : Fin 1) :=
    Shape.idx_ext₂ (by show (_ : ℕ) = (e4 j 0 : ℕ); omega) ((Fin.val_eq_zero _).trans (Fin.val_eq_zero _).symm)
  have E3 : e3 (ix2 (0 : Fin 1) (j 1)) = ix2 (0 : Fin 1) (e4 j 1) :=
    Shape.idx_ext₂ ((Fin.val_eq_zero _).trans (Fin.val_eq_zero _).symm) (by show (_ : ℕ) = (e4 j 1 : ℕ); omega)
  rw [pay_apply, h0, h1, h2, h3, E0, E1, E2, E3]
  rfl

/-- Every index of the array lies in the output block of the point at its row block. -/
theorem covered_rows {w N : ℕ} (hN : N = 25) {o0 o1 o2 o3 o4 : Fin N → Fin 2 → ℕ}
    (ho : ∀ t : Fin N, RowBlocks t.val (o0 t) (o1 t) (o2 t) (o3 t) (o4 t)) (i : (⟨2, ![50000, w]⟩ : Shape).Idx) :
    ∃ t : Fin N, ∀ a : Fin 2, o4 t a * ![2000, w] a ≤ (i a).val ∧ (i a).val < o4 t a * ![2000, w] a + ![2000, w] a := by
  have hi0 : (i 0).val < 50000 := (i 0).isLt
  have hi1 : (i 1).val < w := (i 1).isLt
  obtain ⟨t, ht⟩ : ∃ t : Fin N, t.val = (i 0).val / 2000 := ⟨⟨_, by omega⟩, rfl⟩
  obtain ⟨-, -, -, -, -, -, -, -, h0, h1⟩ := ho t
  refine ⟨t, fun a => ?_⟩
  match a with
  | ⟨0, _⟩ => show o4 t 0 * 2000 ≤ (i 0).val ∧ (i 0).val < o4 t 0 * 2000 + 2000; omega
  | ⟨1, _⟩ => show o4 t 1 * w ≤ (i 1).val ∧ (i 1).val < o4 t 1 * w + w; rw [h1]; omega

theorem zero_offsets : (![0, 0] : Fin 2 → Nat) = fun _ => 0 := funext fun a => by fin_cases a <;> rfl

variable (V : (c : Dev nD) → (b : Ref sig .tc) → Buf (Elt Ideal) ((c : Thread nD τ).loc b))

abbrev combined1 := @combined 32

theorem combined1_apply (A T D B i) :
    combined1 A T D B i = max ((A i + T i * D (ix2 (i 0) (0 : Fin 1))) + B (ix2 (0 : Fin 1) (i 1))) (0 : EReal) := rfl

theorem block_indices1 : ∀ t : Fin cfg1.N,
    RowBlocks t.val (win1_0.index t) (win1_1.index t) (win1_2.index t) (win1_3.index t) (win1_4.index t) :=
  (by decide +kernel : ∀ t : Fin grid1.N, _)

theorem arrayC1 (c : Dev nD) :
    (dat1 (F := Ideal) V c).arrAt 4 cfg1.N = combined1 (V c main_v35) (V c main_v28) (V c main_v36) (V c main_v37) := by
  refine (dat1 (F := Ideal) V c).arrAt_eq_of_cover 4 _ (fun t _ => ?_) (fun i => ?_)
  · show (cfg1.win 4).cut (grid1.coords t) ((dat1 (F := Ideal) V c).after 4 t) = _
    rw [after1_4]
    unfold out1_4 k1_pay1
    rw [View.canon_unit_zero zero_offsets]
    simp only [View.ld_unit_zero (S := S2000x32) zero_offsets, View.ld_unit_zero (S := S2000x1) zero_offsets,
      View.ld_unit_zero (S := S1x32) zero_offsets, shapeCast_self]
    exact funext fun j => combine_blocks (block_indices1 t)
      (win1_0.rect_emb_val t) (win1_1.rect_emb_val t) (win1_2.rect_emb_val t) (win1_3.rect_emb_val t) (win1_4.rect_emb_val t)
      (fun _ => rfl) (fun _ => rfl) (fun _ => rfl) (fun _ => rfl) j
  · obtain ⟨t, ht⟩ := covered_rows N_1 block_indices1 i
    refine ⟨t, flush1_4 t, ?_⟩
    show i ∈ ((View.whole main_v38).slice (win1_4.rect t)).set
    rw [View.set_slice_whole, Rect.mem_set_unit]
    exact ht

abbrev combined3 := @combined 64

theorem combined3_apply (A T D B i) :
    combined3 A T D B i = max ((A i + T i * D (ix2 (i 0) (0 : Fin 1))) + B (ix2 (0 : Fin 1) (i 1))) (0 : EReal) := rfl

theorem block_indices3 : ∀ t : Fin cfg3.N,
    RowBlocks t.val (win3_0.index t) (win3_1.index t) (win3_2.index t) (win3_3.index t) (win3_4.index t) :=
  (by decide +kernel : ∀ t : Fin grid3.N, _)

theorem arrayC3 (c : Dev nD) :
    (dat3 (F := Ideal) V c).arrAt 4 cfg3.N = combined3 (V c main_v46) (V c main_v39) (V c main_v47) (V c main_v48) := by
  refine (dat3 (F := Ideal) V c).arrAt_eq_of_cover 4 _ (fun t _ => ?_) (fun i => ?_)
  · show (cfg3.win 4).cut (grid3.coords t) ((dat3 (F := Ideal) V c).after 4 t) = _
    rw [after3_4]
    unfold out3_4 k3_pay1
    rw [View.canon_unit_zero zero_offsets]
    simp only [View.ld_unit_zero (S := S2000x64) zero_offsets, View.ld_unit_zero (S := S2000x1) zero_offsets,
      View.ld_unit_zero (S := S1x64) zero_offsets, shapeCast_self]
    exact funext fun j => combine_blocks (block_indices3 t)
      (win3_0.rect_emb_val t) (win3_1.rect_emb_val t) (win3_2.rect_emb_val t) (win3_3.rect_emb_val t) (win3_4.rect_emb_val t)
      (fun _ => rfl) (fun _ => rfl) (fun _ => rfl) (fun _ => rfl) j
  · obtain ⟨t, ht⟩ := covered_rows N_3 block_indices3 i
    refine ⟨t, flush3_4 t, ?_⟩
    show i ∈ ((View.whole main_v49).slice (win3_4.rect t)).set
    rw [View.set_slice_whole, Rect.mem_set_unit]
    exact ht

abbrev combined5 := @combined 128

theorem combined5_apply (A T D B i) :
    combined5 A T D B i = max ((A i + T i * D (ix2 (i 0) (0 : Fin 1))) + B (ix2 (0 : Fin 1) (i 1))) (0 : EReal) := rfl

theorem block_indices5 : ∀ t : Fin cfg5.N,
    RowBlocks t.val (win5_0.index t) (win5_1.index t) (win5_2.index t) (win5_3.index t) (win5_4.index t) :=
  (by decide +kernel : ∀ t : Fin grid5.N, _)

theorem arrayC5 (c : Dev nD) :
    (dat5 (F := Ideal) V c).arrAt 4 cfg5.N = combined5 (V c main_v57) (V c main_v50) (V c main_v58) (V c main_v59) := by
  refine (dat5 (F := Ideal) V c).arrAt_eq_of_cover 4 _ (fun t _ => ?_) (fun i => ?_)
  · show (cfg5.win 4).cut (grid5.coords t) ((dat5 (F := Ideal) V c).after 4 t) = _
    rw [after5_4]
    unfold out5_4 k5_pay1
    rw [View.canon_unit_zero zero_offsets]
    simp only [View.ld_unit_zero (S := S2000x128) zero_offsets, View.ld_unit_zero (S := S2000x1) zero_offsets,
      View.ld_unit_zero (S := S1x128) zero_offsets, shapeCast_self]
    exact funext fun j => combine_blocks (block_indices5 t)
      (win5_0.rect_emb_val t) (win5_1.rect_emb_val t) (win5_2.rect_emb_val t) (win5_3.rect_emb_val t) (win5_4.rect_emb_val t)
      (fun _ => rfl) (fun _ => rfl) (fun _ => rfl) (fun _ => rfl) j
  · obtain ⟨t, ht⟩ := covered_rows N_5 block_indices5 i
    refine ⟨t, flush5_4 t, ?_⟩
    show i ∈ ((View.whole main_v60).slice (win5_4.rect t)).set
    rw [View.set_slice_whole, Rect.mem_set_unit]
    exact ht

theorem arrC5 (c : Dev nD) (i : S50000x128.Idx) :
    (dat5 (F := Ideal) V c).arrAt 4 cfg5.N i = combined5 (V c main_v57) (V c main_v50) (V c main_v58) (V c main_v59) i :=
  congrFun (arrayC5 V c) i

abbrev combined7 := @combined 256

theorem combined7_apply (A T D B i) :
    combined7 A T D B i = max ((A i + T i * D (ix2 (i 0) (0 : Fin 1))) + B (ix2 (0 : Fin 1) (i 1))) (0 : EReal) := rfl

theorem block_indices7 : ∀ t : Fin cfg7.N,
    RowBlocks t.val (win7_0.index t) (win7_1.index t) (win7_2.index t) (win7_3.index t) (win7_4.index t) :=
  (by decide +kernel : ∀ t : Fin grid7.N, _)

theorem arrayC7 (c : Dev nD) :
    (dat7 (F := Ideal) V c).arrAt 4 cfg7.N = combined7 (V c main_v68) (V c main_v61) (V c main_v69) (V c main_v70) := by
  refine (dat7 (F := Ideal) V c).arrAt_eq_of_cover 4 _ (fun t _ => ?_) (fun i => ?_)
  · show (cfg7.win 4).cut (grid7.coords t) ((dat7 (F := Ideal) V c).after 4 t) = _
    rw [after7_4]
    unfold out7_4 k7_pay1
    rw [View.canon_unit_zero zero_offsets]
    simp only [View.ld_unit_zero (S := S2000x256) zero_offsets, View.ld_unit_zero (S := S2000x1) zero_offsets,
      View.ld_unit_zero (S := S1x256) zero_offsets, shapeCast_self]
    exact funext fun j => combine_blocks (block_indices7 t)
      (win7_0.rect_emb_val t) (win7_1.rect_emb_val t) (win7_2.rect_emb_val t) (win7_3.rect_emb_val t) (win7_4.rect_emb_val t)
      (fun _ => rfl) (fun _ => rfl) (fun _ => rfl) (fun _ => rfl) j
  · obtain ⟨t, ht⟩ := covered_rows N_7 block_indices7 i
    refine ⟨t, flush7_4 t, ?_⟩
    show i ∈ ((View.whole main_v71).slice (win7_4.rect t)).set
    rw [View.set_slice_whole, Rect.mem_set_unit]
    exact ht

theorem arrC7 (c : Dev nD) (i : S50000x256.Idx) :
    (dat7 (F := Ideal) V c).arrAt 4 cfg7.N i = combined7 (V c main_v68) (V c main_v61) (V c main_v69) (V c main_v70) i :=
  congrFun (arrayC7 V c) i

end Cert.KernelIdeal.Val

end
-- ==== Proof.Value.TakeMask.lean ====
import proofs.«427753_j34041910788666_1_alg».proof.Proof.Gen.KernelIdeal.Launch
import Idealize.ShloMosaic.Lib.StableHlo.Run
import Idealize.ShloMosaic.Lib.ValueIdx
import Idealize.ShloMosaic.PureOps.Reduce
import Idealize.ShloMosaic.PureOps.Ideal

set_option maxRecDepth 1524

noncomputable section

namespace Cert.KernelIdeal.Val

open Idealize.ShloMosaic Idealize.ShloMosaic.TcCoe Idealize.ShloMosaic.ValueIdx
open Cert.KernelIdeal.Gen

-- A word that is not negative is left alone by the wrap-around of negative indices.
private theorem wrap_word (w : BitVec 32) (h0 : 0 ≤ w.toInt) :
    Scalar.select (IntOp.cmpi .slt w 0#32) (IntOp.addi w 50000#32) w = w := by
  have h : IntOp.cmpi .slt w 0#32 = 0#1 := by
    have z : (0#32 : BitVec 32).toInt = 0 := by decide
    simp only [IntOp.cmpi, BitVec.slt, z]
    rw [decide_eq_false (by omega)]; rfl
  rw [h]; exact select_zero _ _

-- Being a row number of the table, as a signed word.
private def InRange (w : BitVec 32) : Prop := 0 ≤ w.toInt ∧ w.toInt < 50000

-- Such a word passes the test 0 ≤ w ≤ 49999.
private theorem inrange_word (w : BitVec 32) (h : InRange w) :
    IntOp.andi (IntOp.cmpi .sge w 0#32) (IntOp.cmpi .sle w 49999#32) = 1#1 := by
  obtain ⟨h0, h1⟩ := h
  have z : (0#32 : BitVec 32).toInt = 0 := by decide
  have t : (49999#32 : BitVec 32).toInt = 49999 := by decide
  have a : IntOp.cmpi .sge w 0#32 = 1#1 := by
    simp only [IntOp.cmpi, BitVec.sle, z]
    rw [decide_eq_true (by omega)]; rfl
  have b : IntOp.cmpi .sle w 49999#32 = 1#1 := by
    simp only [IntOp.cmpi, BitVec.sle, t]
    rw [decide_eq_true (by omega)]; rfl
  rw [a, b]; decide

-- A conjunction of ones, from one, is one.
private theorem reduce_andi_ones {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  show List.foldl _ 1#1 _ = 1#1
  generalize List.filter _ _ = l
  induction l with
  | nil => rfl
  | cons a l ih => rw [List.foldl_cons, hx a, show IntOp.andi 1#1 1#1 = 1#1 from by decide]; exact ih

-- The range test of a column of row numbers is one everywhere, so a selection on it, laid along any shape, keeps its first branch.
private theorem select_mask {α : Type} {t : Shape} {dims : Fin S800000.rank → Fin t.rank}
    (hb : S800000.BroadcastsInDim t dims) (c : IVec S800000x1 32) (hc : ∀ i, InRange (c i)) (a b : t.Idx → α) :
    select (broadcastInDim t dims hb
      (Host.reduce IntOp.andi
        (andi (cmpi .sge c (broadcastInDim S800000x1 ![] bcast_S_S800000x1 (constantI S_ 32 0#32)))
          (cmpi .sle c (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_)) a b = a := by
  funext j
  rw [select_apply]
  refine (congrArg (Scalar.select · (a j) (b j)) ?_).trans (select_one (a j) (b j))
  exact reduce_andi_ones _ _ _ (fun i => inrange_word (c i) (hc i)) _

-- Row numbers, wrapped and laid out as a column, are the same row numbers.
private theorem col_range (s : IVec S800000 32) (hr : ∀ e : Fin 800000, InRange (s (ix1 e))) (i : S800000x1.Idx) :
    InRange (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s) i) := by
  have key : ∀ k : S800000.Idx, InRange (s k) := fun k => by rw [eq_ix1 k]; exact hr (k 0)
  refine (?_ : InRange (Scalar.select (IntOp.cmpi .slt (s _) 0#32) (IntOp.addi (s _) 50000#32) (s _)))
  rw [wrap_word _ (key _).1]; exact key _

private theorem ofBuf_toBuf {Val : EltTy → Type} {T : BufTy} (x : StableHlo.TRef sig T) (v : T.Contents Val) :
    x.ofBuf (x.toBuf v) = v := by
  simp only [StableHlo.TRef.ofBuf, StableHlo.TRef.toBuf, cast_cast, cast_eq]

open Idealize.ShloMosaic.StableHlo

-- Every source index being a row number, each stretch leaves the rows gathered at the wrapped indices, none replaced by the fill.
variable (W : Valuation τ sig (Elt Ideal))
  (hr : ∀ e : Fin 800000, 0 ≤ ((W (Proc.devRef .tc main_v1) : IVec S800000 32) (ix1 e)).toInt
    ∧ ((W (Proc.devRef .tc main_v1) : IVec S800000 32) (ix1 e)).toInt < 50000)
include hr

set_option maxHeartbeats 1000000 in
theorem take1 :
    (StableHlo.after hostOps1 W (Proc.devRef .tc main_v29) : FVec Ideal S800000x32 .f32)
      = Host.gather gather_S50000x32_S800000x1_S800000x32_1_0_n_n_0_1_132 (W (Proc.devRef .tc main_v28))
          (broadcastInDim S800000x1 ![0] bcast_S800000_S800000x1_0
            (select (cmpi .slt (W (Proc.devRef .tc main_v1) : IVec S800000 32)
                (broadcastInDim S800000 ![] bcast_S_S800000 (constantI S_ 32 0#32)))
              (addi (W (Proc.devRef .tc main_v1) : IVec S800000 32)
                (broadcastInDim S800000 ![] bcast_S_S800000 (constantI S_ 32 50000#32)))
              (W (Proc.devRef .tc main_v1) : IVec S800000 32))) := by
  after_results_simp
  simp only [ofBuf_toBuf]
  simp only [TRef.ofBuf, TRef.toBuf, cast_eq]
  exact select_mask _ _ (col_range _ hr) _ _

set_option maxHeartbeats 1000000 in
theorem take3 :
    (StableHlo.after hostOps3 W (Proc.devRef .tc main_v40) : FVec Ideal S800000x64 .f32)
      = Host.gather gather_S50000x64_S800000x1_S800000x64_1_0_n_n_0_1_164 (W (Proc.devRef .tc main_v39))
          (broadcastInDim S800000x1 ![0] bcast_S800000_S800000x1_0
            (select (cmpi .slt (W (Proc.devRef .tc main_v1) : IVec S800000 32)
                (broadcastInDim S800000 ![] bcast_S_S800000 (constantI S_ 32 0#32)))
              (addi (W (Proc.devRef .tc main_v1) : IVec S800000 32)
                (broadcastInDim S800000 ![] bcast_S_S800000 (constantI S_ 32 50000#32)))
              (W (Proc.devRef .tc main_v1) : IVec S800000 32))) := by
  after_results_simp
  simp only [ofBuf_toBuf]
  simp only [TRef.ofBuf, TRef.toBuf, cast_eq]
  exact select_mask _ _ (col_range _ hr) _ _

set_option maxHeartbeats 1000000 in
theorem take5 :
    (StableHlo.after hostOps5 W (Proc.devRef .tc main_v51) : FVec Ideal S800000x128 .f32)
      = Host.gather gather_S50000x128_S800000x1_S800000x128_1_0_n_n_0_1_1128 (W (Proc.devRef .tc main_v50))
          (broadcastInDim S800000x1 ![0] bcast_S800000_S800000x1_0
            (select (cmpi .slt (W (Proc.devRef .tc main_v1) : IVec S800000 32)
                (broadcastInDim S800000 ![] bcast_S_S800000 (constantI S_ 32 0#32)))
              (addi (W (Proc.devRef .tc main_v1) : IVec S800000 32)
                (broadcastInDim S800000 ![] bcast_S_S800000 (constantI S_ 32 50000#32)))
              (W (Proc.devRef .tc main_v1) : IVec S800000 32))) := by
  after_results_simp
  simp only [ofBuf_toBuf]
  simp only [TRef.ofBuf, TRef.toBuf, cast_eq]
  exact select_mask _ _ (col_range _ hr) _ _

set_option maxHeartbeats 1000000 in
theorem take7 :
    (StableHlo.after hostOps7 W (Proc.devRef .tc main_v62) : FVec Ideal S800000x256 .f32)
      = Host.gather gather_S50000x256_S800000x1_S800000x256_1_0_n_n_0_1_1256 (W (Proc.devRef .tc main_v61))
          (broadcastInDim S800000x1 ![0] bcast_S800000_S800000x1_0
            (select (cmpi .slt (W (Proc.devRef .tc main_v1) : IVec S800000 32)
                (broadcastInDim S800000 ![] bcast_S_S800000 (constantI S_ 32 0#32)))
              (addi (W (Proc.devRef .tc main_v1) : IVec S800000 32)
                (broadcastInDim S800000 ![] bcast_S_S800000 (constantI S_ 32 50000#32)))
              (W (Proc.devRef .tc main_v1) : IVec S800000 32))) := by
  after_results_simp
  simp only [ofBuf_toBuf]
  simp only [TRef.ofBuf, TRef.toBuf, cast_eq]
  exact select_mask _ _ (col_range _ hr) _ _

end Cert.KernelIdeal.Val

end
-- ==== Proof.Value.Layers.lean ====
import proofs.«427753_j34041910788666_1_alg».proof.Proof.Value.PreFacts
import proofs.«427753_j34041910788666_1_alg».proof.Proof.Value.Chain0
import proofs.«427753_j34041910788666_1_alg».proof.Proof.Value.ValT
import proofs.«427753_j34041910788666_1_alg».proof.Proof.Value.ValC
import proofs.«427753_j34041910788666_1_alg».proof.Proof.Value.TakeMask
import proofs.«427753_j34041910788666_1_alg».proof.Defs
import Idealize.ShloMosaic.Lib.ValueLayout

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand Cert.ReferenceIdeal.Read

theorem src_at (x1 : IVec S2x800000 32) (e : Fin 800000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

theorem col_at {α : Type} {n : ℕ} (y : (⟨1, ![n]⟩ : Shape).Idx → α) (h : (⟨1, ![n]⟩ : Shape).ShapeCasts ⟨2, ![n, 1]⟩) (p : Fin n) :
    shapeCast ⟨2, ![n, 1]⟩ y h (ix2 p (0 : Fin 1)) = y (ix1 p) :=
  shapeCast_apply y h _ _ (by
    rw [Shape.rowMajor_val_two, Shape.rowMajor_val_one]
    show p.val = p.val * 1 + 0
    rw [Nat.mul_one, Nat.add_zero])

/-- One entry of a graph-convolution layer: the sum over the edges plus the node's own row scaled by its inverse degree, plus the bias, cut off at zero. -/
theorem gcn_at {n f : ℕ} {A T : (⟨2, ![n, f]⟩ : Shape).Idx → EReal} {D : (⟨2, ![n, 1]⟩ : Shape).Idx → EReal}
    {B : (⟨2, ![1, f]⟩ : Shape).Idx → EReal} {d : FVec Ideal ⟨1, ![n]⟩ .f32} {b : FVec Ideal ⟨1, ![f]⟩ .f32}
    {hc : (⟨1, ![n]⟩ : Shape).ShapeCasts ⟨2, ![n, 1]⟩} {hr : (⟨1, ![f]⟩ : Shape).ShapeCasts ⟨2, ![1, f]⟩}
    {A' T' dS bS fl : FVec Ideal ⟨2, ![n, f]⟩ .f32}
    (hA : A = A') (hT : T = T') (hD : D = shapeCast ⟨2, ![n, 1]⟩ d hc) (hB : B = shapeCast ⟨2, ![1, f]⟩ b hr)
    (i : (⟨2, ![n, f]⟩ : Shape).Idx)
    (hd : dS i = d (ix1 (i 0))) (hb : bS i = b (ix1 (i 1))) (hz : fl i = 0) :
    max ((A i + T i * D (ix2 (i 0) (0 : Fin 1))) + B (ix2 (0 : Fin 1) (i 1))) (0 : EReal)
      = maximumf (addf (addf A' (mulf T' dS)) bS) fl i := by
  rw [maximumf_apply, addf_apply, addf_apply, mulf_apply, hA, hT, hD, hB, hd, hb, hz, col_at d hc (i 0),
    shapeCast_a_1a_apply b hr 0 (i 1)]

variable [Cert.Pre_finite_inputs.Facts]
variable (m : (ℓ : Loc nD τ sig) → Buf (Elt Ideal) ℓ) (ρ : Dev nD → PrngReg) (c : Dev nD)

theorem src_ok (hpre : Cert.Pre_KernelIdeal m) {v : IVec S800000 32}
    (hv : v = val_main_v1 (F := Ideal) (m ((c : Thread nD τ).loc main_arg1))) (e : Fin 800000) :
    0 ≤ (v (ix1 e)).toInt ∧ (v (ix1 e)).toInt < 50000 := by
  rw [hv, src_at]
  exact src_range _ _ _ _ _ _ _ _ _ _ _ _ _ (hpre c) e

variable {x0 : FVec Ideal S50000x5 .f32} {x3 : FVec Ideal S5x32 .f32} {x4 : FVec Ideal S32 .f32}
  {x5 : FVec Ideal S32x64 .f32} {x6 : FVec Ideal S64 .f32} {x7 : FVec Ideal S64x128 .f32} {x8 : FVec Ideal S128 .f32}

theorem layer1 (hpre : Cert.Pre_KernelIdeal m) :
    (W5 m ρ c (Proc.devRef .tc main_v38) : FVec Ideal S50000x32 .f32)
      = val_main_v49 (F := Ideal) (m ((c : Thread nD τ).loc main_arg0)) (m ((c : Thread nD τ).loc main_arg1))
          (m ((c : Thread nD τ).loc main_arg3)) (m ((c : Thread nD τ).loc main_arg4)) := by
  have hT : (W2 m ρ c (Proc.devRef .tc main_v28) : FVec Ideal S50000x32 .f32) = _ :=
    (W2_arr m ρ c 2).trans (arrT0 (V1 m ρ) c)
  rw [show V1 m ρ c main_arg0 = _ from w1_arg0 m ρ c, show V1 m ρ c main_arg3 = _ from w1_arg3 m ρ c] at hT
  have e1 := (keep2 m ρ c main_v1 (by decide)).trans (w1_src m ρ c)
  have hG : (W3 m ρ c (Proc.devRef .tc main_v29) : FVec Ideal S800000x32 .f32) = _ :=
    take1 (W2 m ρ c) (src_ok m c hpre e1)
  rw [hT, e1] at hG
  have e3 := (keep3 m ρ c main_v3 (by decide)).trans (w1_dst m ρ c)
  have e27 := (keep3 m ρ c main_v27 (by decide)).trans (w1_norm m ρ c)
  have hA : (StableHlo.after hostOps1_1 (W3 m ρ c) (Proc.devRef .tc main_v35) : FVec Ideal S50000x32 .f32)
      = val_main_v41 (F := Ideal) (m ((c : Thread nD τ).loc main_arg0)) (m ((c : Thread nD τ).loc main_arg1)) (m ((c : Thread nD τ).loc main_arg3)) := by
    generalize W3 m ρ c = X at hG e3 e27 ⊢
    after_results
    rw [hG, e3, e27]
    rfl
  have hD : (StableHlo.after hostOps1_1 (W3 m ρ c) (Proc.devRef .tc main_v36) : FVec Ideal S50000x1 .f32)
      = shapeCast S50000x1 (W3 m ρ c (Proc.devRef .tc main_v12) : FVec Ideal S50000 .f32) shapeCasts_S50000_S50000x1 := by
    generalize W3 m ρ c = X
    after_results
    rfl
  have hB : (StableHlo.after hostOps1_1 (W3 m ρ c) (Proc.devRef .tc main_v37) : FVec Ideal S1x32 .f32)
      = shapeCast S1x32 (W3 m ρ c (Proc.devRef .tc main_arg4) : FVec Ideal S32 .f32) shapeCasts_S32_S1x32 := by
    generalize W3 m ρ c = X
    after_results
    rfl
  rw [keep3 m ρ c main_v12 (by decide), w1_invdeg] at hD
  rw [keep3 m ρ c main_arg4 (by decide), w1_arg4] at hB
  have hT' : (W4 m ρ c (Proc.devRef .tc main_v28) : FVec Ideal S50000x32 .f32) = _ :=
    ((StableHlo.after_of_writes_sub hostOps1_1 _ hostOps1_1_writes (by decide)).trans
      (StableHlo.after_of_writes_sub hostOps1 _ hostOps1_writes (by decide))).trans hT
  funext i
  refine ((congrFun (W5_arr m ρ c 4) i).trans (congrFun (arrayC1 (V4 m ρ) c) i)).trans ?_
  rw [combined1_apply]
  unfold val_main_v49 val_main_v48 val_main_v45 val_main_v44
  refine gcn_at hA hT' hD hB i ?_ ?_ ?_
  · rw [val_main_v43_apply, val_main_v42_apply]; exact congrArg _ (eq_ix1 _)
  · rw [val_main_v47_apply, val_main_v46_apply]; exact congrArg _ (eq_ix1 _)
  · rw [val_main_call0_v0_apply, val_main_call0_cst_apply]; exact Ideal.ofBits_zero_f32

theorem layer2 (hpre : Cert.Pre_KernelIdeal m)
    (hin : (W5 m ρ c (Proc.devRef .tc main_v38) : FVec Ideal S50000x32 .f32)
      = val_main_v49 (F := Ideal) x0 (m ((c : Thread nD τ).loc main_arg1)) x3 x4) :
    (W9 m ρ c (Proc.devRef .tc main_v49) : FVec Ideal S50000x64 .f32)
      = val_main_v71 (F := Ideal) x0 (m ((c : Thread nD τ).loc main_arg1)) x3 x4
          (m ((c : Thread nD τ).loc main_arg5)) (m ((c : Thread nD τ).loc main_arg6)) := by
  have hT : (W6 m ρ c (Proc.devRef .tc main_v39) : FVec Ideal S50000x64 .f32) = _ :=
    (W6_arr m ρ c 2).trans (arrT2 (V5 m ρ) c)
  rw [show V5 m ρ c main_v38 = _ from hin,
    show V5 m ρ c main_arg5 = _ from (keep5 m ρ c main_arg5 (by decide)).trans (w1_arg5 m ρ c)] at hT
  have e1 := (keep6 m ρ c main_v1 (by decide)).trans (w1_src m ρ c)
  have hG : (W7 m ρ c (Proc.devRef .tc main_v40) : FVec Ideal S800000x64 .f32) = _ :=
    take3 (W6 m ρ c) (src_ok m c hpre e1)
  rw [hT, e1] at hG
  have e3 := (keep7 m ρ c main_v3 (by decide)).trans (w1_dst m ρ c)
  have e27 := (keep7 m ρ c main_v27 (by decide)).trans (w1_norm m ρ c)
  have hA : (StableHlo.after hostOps3_1 (W7 m ρ c) (Proc.devRef .tc main_v46) : FVec Ideal S50000x64 .f32)
      = val_main_v63 (F := Ideal) x0 (m ((c : Thread nD τ).loc main_arg1)) x3 x4 (m ((c : Thread nD τ).loc main_arg5)) := by
    generalize W7 m ρ c = X at hG e3 e27 ⊢
    after_results
    rw [hG, e3, e27]
    rfl
  have hD : (StableHlo.after hostOps3_1 (W7 m ρ c) (Proc.devRef .tc main_v47) : FVec Ideal S50000x1 .f32)
      = shapeCast S50000x1 (W7 m ρ c (Proc.devRef .tc main_v12) : FVec Ideal S50000 .f32) shapeCasts_S50000_S50000x1 := by
    generalize W7 m ρ c = X
    after_results
    rfl
  have hB : (StableHlo.after hostOps3_1 (W7 m ρ c) (Proc.devRef .tc main_v48) : FVec Ideal S1x64 .f32)
      = shapeCast S1x64 (W7 m ρ c (Proc.devRef .tc main_arg6) : FVec Ideal S64 .f32) shapeCasts_S64_S1x64 := by
    generalize W7 m ρ c = X
    after_results
    rfl
  rw [keep7 m ρ c main_v12 (by decide), w1_invdeg] at hD
  rw [keep7 m ρ c main_arg6 (by decide), w1_arg6] at hB
  have hT' : (W8 m ρ c (Proc.devRef .tc main_v39) : FVec Ideal S50000x64 .f32) = _ :=
    ((StableHlo.after_of_writes_sub hostOps3_1 _ hostOps3_1_writes (by decide)).trans
      (StableHlo.after_of_writes_sub hostOps3 _ hostOps3_writes (by decide))).trans hT
  funext i
  refine ((congrFun (W9_arr m ρ c 4) i).trans (congrFun (arrayC3 (V8 m ρ) c) i)).trans ?_
  rw [combined3_apply]
  unfold val_main_v71 val_main_v70 val_main_v67 val_main_v66
  refine gcn_at hA hT' hD hB i ?_ ?_ ?_
  · rw [val_main_v65_apply, val_main_v64_apply]; exact congrArg _ (eq_ix1 _)
  · rw [val_main_v69_apply, val_main_v68_apply]; exact congrArg _ (eq_ix1 _)
  · rw [val_main_call1_v0_apply, val_main_call1_cst_apply]; exact Ideal.ofBits_zero_f32

theorem layer3 (hpre : Cert.Pre_KernelIdeal m)
    (hin : (W9 m ρ c (Proc.devRef .tc main_v49) : FVec Ideal S50000x64 .f32)
      = val_main_v71 (F := Ideal) x0 (m ((c : Thread nD τ).loc main_arg1)) x3 x4 x5 x6) :
    (W13 m ρ c (Proc.devRef .tc main_v60) : FVec Ideal S50000x128 .f32)
      = val_main_v93 (F := Ideal) x0 (m ((c : Thread nD τ).loc main_arg1)) x3 x4 x5 x6
          (m ((c : Thread nD τ).loc main_arg7)) (m ((c : Thread nD τ).loc main_arg8)) := by
  have hT : (W10 m ρ c (Proc.devRef .tc main_v50) : FVec Ideal S50000x128 .f32) = _ :=
    (W10_arr m ρ c 2).trans (arrT4 (V9 m ρ) c)
  rw [show V9 m ρ c main_v49 = _ from hin,
    show V9 m ρ c main_arg7 = _ from (keep9 m ρ c main_arg7 (by decide)).trans (w1_arg7 m ρ c)] at hT
  have e1 := (keep10 m ρ c main_v1 (by decide)).trans (w1_src m ρ c)
  have hG : (W11 m ρ c (Proc.devRef .tc main_v51) : FVec Ideal S800000x128 .f32) = _ :=
    take5 (W10 m ρ c) (src_ok m c hpre e1)
  rw [hT, e1] at hG
  have e3 := (keep11 m ρ c main_v3 (by decide)).trans (w1_dst m ρ c)
  have e27 := (keep11 m ρ c main_v27 (by decide)).trans (w1_norm m ρ c)
  have hA : (StableHlo.after hostOps5_1 (W11 m ρ c) (Proc.devRef .tc main_v57) : FVec Ideal S50000x128 .f32)
      = val_main_v85 (F := Ideal) x0 (m ((c : Thread nD τ).loc main_arg1)) x3 x4 x5 x6 (m ((c : Thread nD τ).loc main_arg7)) := by
    generalize W11 m ρ c = X at hG e3 e27 ⊢
    after_results
    rw [hG, e3, e27]
    rfl
  have hD : (StableHlo.after hostOps5_1 (W11 m ρ c) (Proc.devRef .tc main_v58) : FVec Ideal S50000x1 .f32)
      = shapeCast S50000x1 (W11 m ρ c (Proc.devRef .tc main_v12) : FVec Ideal S50000 .f32) shapeCasts_S50000_S50000x1 := by
    generalize W11 m ρ c = X
    after_results
    rfl
  have hB : (StableHlo.after hostOps5_1 (W11 m ρ c) (Proc.devRef .tc main_v59) : FVec Ideal S1x128 .f32)
      = shapeCast S1x128 (W11 m ρ c (Proc.devRef .tc main_arg8) : FVec Ideal S128 .f32) shapeCasts_S128_S1x128 := by
    generalize W11 m ρ c = X
    after_results
    rfl
  rw [keep11 m ρ c main_v12 (by decide), w1_invdeg] at hD
  rw [keep11 m ρ c main_arg8 (by decide), w1_arg8] at hB
  have hT' : (W12 m ρ c (Proc.devRef .tc main_v50) : FVec Ideal S50000x128 .f32) = _ :=
    ((StableHlo.after_of_writes_sub hostOps5_1 _ hostOps5_1_writes (by decide)).trans
      (StableHlo.after_of_writes_sub hostOps5 _ hostOps5_writes (by decide))).trans hT
  funext i
  refine ((congrFun (W13_arr m ρ c 4) i).trans (arrC5 (V12 m ρ) c i)).trans ?_
  rw [combined5_apply]
  unfold val_main_v93 val_main_v92 val_main_v89 val_main_v88
  refine gcn_at hA hT' hD hB i ?_ ?_ ?_
  · rw [val_main_v87_apply, val_main_v86_apply]; exact congrArg _ (eq_ix1 _)
  · rw [val_main_v91_apply, val_main_v90_apply]; exact congrArg _ (eq_ix1 _)
  · rw [val_main_call2_v0_apply, val_main_call2_cst_apply]; exact Ideal.ofBits_zero_f32

theorem layer4 (hpre : Cert.Pre_KernelIdeal m)
    (hin : (W13 m ρ c (Proc.devRef .tc main_v60) : FVec Ideal S50000x128 .f32)
      = val_main_v93 (F := Ideal) x0 (m ((c : Thread nD τ).loc main_arg1)) x3 x4 x5 x6 x7 x8) :
    (W17 m ρ c (Proc.devRef .tc main_v71) : FVec Ideal S50000x256 .f32)
      = val_main_v115 (F := Ideal) x0 (m ((c : Thread nD τ).loc main_arg1)) x3 x4 x5 x6 x7 x8
          (m ((c : Thread nD τ).loc main_arg9)) (m ((c : Thread nD τ).loc main_arg10)) := by
  have hT : (W14 m ρ c (Proc.devRef .tc main_v61) : FVec Ideal S50000x256 .f32) = _ :=
    (W14_arr m ρ c 2).trans (arrT6 (V13 m ρ) c)
  rw [show V13 m ρ c main_v60 = _ from hin,
    show V13 m ρ c main_arg9 = _ from (keep13 m ρ c main_arg9 (by decide)).trans (w1_arg9 m ρ c)] at hT
  have e1 := (keep14 m ρ c main_v1 (by decide)).trans (w1_src m ρ c)
  have hG : (W15 m ρ c (Proc.devRef .tc main_v62) : FVec Ideal S800000x256 .f32) = _ :=
    take7 (W14 m ρ c) (src_ok m c hpre e1)
  rw [hT, e1] at hG
  have e3 := (keep15 m ρ c main_v3 (by decide)).trans (w1_dst m ρ c)
  have e27 := (keep15 m ρ c main_v27 (by decide)).trans (w1_norm m ρ c)
  have hA : (StableHlo.after hostOps7_1 (W15 m ρ c) (Proc.devRef .tc main_v68) : FVec Ideal S50000x256 .f32)
      = val_main_v107 (F := Ideal) x0 (m ((c : Thread nD τ).loc main_arg1)) x3 x4 x5 x6 x7 x8 (m ((c : Thread nD τ).loc main_arg9)) := by
    generalize W15 m ρ c = X at hG e3 e27 ⊢
    after_results
    rw [hG, e3, e27]
    rfl
  have hD : (StableHlo.after hostOps7_1 (W15 m ρ c) (Proc.devRef .tc main_v69) : FVec Ideal S50000x1 .f32)
      = shapeCast S50000x1 (W15 m ρ c (Proc.devRef .tc main_v12) : FVec Ideal S50000 .f32) shapeCasts_S50000_S50000x1 := by
    generalize W15 m ρ c = X
    after_results
    rfl
  have hB : (StableHlo.after hostOps7_1 (W15 m ρ c) (Proc.devRef .tc main_v70) : FVec Ideal S1x256 .f32)
      = shapeCast S1x256 (W15 m ρ c (Proc.devRef .tc main_arg10) : FVec Ideal S256 .f32) shapeCasts_S256_S1x256 := by
    generalize W15 m ρ c = X
    after_results
    rfl
  rw [keep15 m ρ c main_v12 (by decide), w1_invdeg] at hD
  rw [keep15 m ρ c main_arg10 (by decide), w1_arg10] at hB
  have hT' : (W16 m ρ c (Proc.devRef .tc main_v61) : FVec Ideal S50000x256 .f32) = _ :=
    ((StableHlo.after_of_writes_sub hostOps7_1 _ hostOps7_1_writes (by decide)).trans
      (StableHlo.after_of_writes_sub hostOps7 _ hostOps7_writes (by decide))).trans hT
  funext i
  refine ((congrFun (W17_arr m ρ c 4) i).trans (arrC7 (V16 m ρ) c i)).trans ?_
  rw [combined7_apply]
  unfold val_main_v115 val_main_v114 val_main_v111 val_main_v110
  refine gcn_at hA hT' hD hB i ?_ ?_ ?_
  · rw [val_main_v109_apply, val_main_v108_apply]; exact congrArg _ (eq_ix1 _)
  · rw [val_main_v113_apply, val_main_v112_apply]; exact congrArg _ (eq_ix1 _)
  · rw [val_main_call3_v0_apply, val_main_call3_cst_apply]; exact Ideal.ofBits_zero_f32

end Cert.KernelIdeal.Val

end
-- ==== Proof.Value.PoolSpec.lean ====
import Idealize.ShloMosaic.PureOps.Ideal
import Idealize.ShloMosaic.Lib.ValueIdx

noncomputable section

namespace Cert.Spec

open Idealize.ShloMosaic Idealize.ShloMosaic.ValueIdx
open scoped BigOperators

/-- The sum of feature `i 1` over the nodes whose id is the word of graph `i 0`. -/
def segSum (ids : (⟨2, ![50000, 1]⟩ : Shape).Idx → BitVec 32) (h : (⟨2, ![50000, 256]⟩ : Shape).Idx → EReal) :
    (⟨2, ![512, 256]⟩ : Shape).Idx → EReal :=
  fun i => ∑ n : Fin 50000, if ids (ix2 n (0 : Fin 1)) = BitVec.ofNat 32 (i 0).val then h (ix2 n (i 1)) else 0

/-- The number of nodes whose id is the word of graph `i 0`. -/
def segCount (ids : (⟨2, ![50000, 1]⟩ : Shape).Idx → BitVec 32) : (⟨2, ![512, 1]⟩ : Shape).Idx → EReal :=
  fun i => ∑ n : Fin 50000, if ids (ix2 n (0 : Fin 1)) = BitVec.ofNat 32 (i 0).val then (1 : EReal) else 0

end Cert.Spec

end
-- ==== Proof.Value.ValP8.lean ====
import proofs.«427753_j34041910788666_1_alg».proof.Proof.KernelIdeal.Reg8
import proofs.«427753_j34041910788666_1_alg».proof.Proof.Value.PoolSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

/-- A column spread over b columns reads, at (p, q), its entry of row p. -/
theorem id_column_spread8 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem indicator_word8 (a b : BitVec 32) :
    (((( IntOp.cmpi .eq a b).setWidth 32).toInt : ℝ) : EReal) = if a = b then (1 : EReal) else 0 := by
  by_cases h : a = b
  · subst h; rw [if_pos rfl]; simp [IntOp.cmpi]
  · rw [if_neg h]
    have hb : (a == b) = false := beq_eq_false_iff_ne.mpr h
    simp [IntOp.cmpi, hb]

/-- Entry (n, g) of the indicator matrix of a block's ids: one if node n's id is the word of g, else zero. -/
theorem indicator8 (ids : Vec Ideal S2000x1 .i32) (n : Fin 2000) (g : Fin 512) :
    k8_pay3 (F := Ideal) ids (ix2 n g) = if ids (ix2 n (0 : Fin 1)) = BitVec.ofNat 32 g.val then (1 : EReal) else 0 := by
  unfold k8_pay3
  simp only [shapeCast_self]
  rw [truncf_apply, sitofp_apply, extui_apply]
  show (((( IntOp.cmpi .eq (broadcastTo S2000x512 ids broadcasts_S2000x1_S2000x512 (ix2 n g)) (iota Kind.tc S2000x512 32 [1] iota_S2000x512_d1_w32 (ix2 n g))).setWidth 32).toInt : ℝ) : EReal) = _
  rw [indicator_word8, id_column_spread8, iota_single_apply]

/-- The product of the transposed indicator matrix with a block contracts the node axis of both: entry (g, f) is the sum of the block's entries (k, f) over the nodes k whose id is the word of g. -/
theorem onehot_dot8 {n : ℕ} (D : DotDims S2000x512 (⟨2, ![2000, n]⟩ : Shape) (⟨2, ![512, n]⟩ : Shape)) (σ : Fin 2000 ≃ D.contr.Idx)
    (ids : Vec Ideal S2000x1 .i32) (R : FVec Ideal (⟨2, ![2000, n]⟩ : Shape) .bf16) (g : Fin 512) (f : Fin n)
    (el : ∀ k, D.lhsIdx (ix2 g f) (σ k) = ix2 (n0 := 2000) (n1 := 512) k g) (er : ∀ k, D.rhsIdx (ix2 g f) (σ k) = ix2 (n0 := 2000) (n1 := n) k f) :
    FloatOps.matmul D none (k8_pay3 (F := Ideal) ids) R (constant (⟨2, ![512, n]⟩ : Shape) .f32 0x00000000#32) (ix2 g f)
      = ∑ k : Fin 2000, if ids (ix2 k (0 : Fin 1)) = BitVec.ofNat 32 g.val then R (ix2 k f) else 0 := by
  refine (Ideal.matmul_constant_zero_apply D none _ _ _).trans ?_
  rw [← Equiv.sum_comp σ]
  refine Finset.sum_congr rfl fun k _ => ?_
  rw [el, er, indicator8]
  split
  · exact one_mul _
  · exact zero_mul _

theorem block_sums8 (x : Vec Ideal S2000x256 .f32) (ids : Vec Ideal S2000x1 .i32) (acc : Vec Ideal S512x256 .f32)
    (g : Fin 512) (f : Fin 256) :
    k8_pay4 (F := Ideal) x ids acc (ix2 g f)
      = acc (ix2 g f) + ∑ k : Fin 2000, if ids (ix2 k (0 : Fin 1)) = BitVec.ofNat 32 g.val then x (ix2 k f) else 0 := by
  unfold k8_pay4
  simp only [shapeCast_self]
  rw [addf_apply]
  exact congrArg (acc (ix2 g f) + ·) (onehot_dot8 dot_S2000x512_S2000x256_S512x256_0_0_1_1_n_n (ValueIdx.contrEquiv1 dot_S2000x512_S2000x256_S512x256_0_0_1_1_n_n 2000 rfl rfl).symm ids _ g f
    (fun k => funext fun a => Fin.ext (by match a with | ⟨0, _⟩ => rfl | ⟨1, _⟩ => rfl))
    (fun k => funext fun a => Fin.ext (by match a with | ⟨0, _⟩ => rfl | ⟨1, _⟩ => rfl)))

theorem block_counts8 (ids : Vec Ideal S2000x1 .i32) (acc : Vec Ideal S512x1 .f32) (g : Fin 512) :
    k8_pay5 (F := Ideal) ids acc (ix2 g (0 : Fin 1))
      = acc (ix2 g (0 : Fin 1)) + ∑ k : Fin 2000, if ids (ix2 k (0 : Fin 1)) = BitVec.ofNat 32 g.val then (1 : EReal) else 0 := by
  unfold k8_pay5
  simp only [shapeCast_self]
  rw [addf_apply]
  refine congrArg (acc (ix2 g (0 : Fin 1)) + ·) ((onehot_dot8 dot_S2000x512_S2000x1_S512x1_0_0_1_1_n_n (ValueIdx.contrEquiv1 dot_S2000x512_S2000x1_S512x1_0_0_1_1_n_n 2000 rfl rfl).symm ids _ g 0
    (fun k => funext fun a => Fin.ext (by match a with | ⟨0, _⟩ => rfl | ⟨1, _⟩ => rfl))
    (fun k => funext fun a => Fin.ext (by match a with | ⟨0, _⟩ => rfl | ⟨1, _⟩ => rfl))).trans ?_)
  simp only [broadcast_apply, show (Scalar.ofBits (F := Ideal) .bf16 0x3F80#16) = (1 : EReal) from Ideal.ofBits_one_bf16]

theorem zero_sums8 (i : S512x256.Idx) : k8_pay1 (F := Ideal) i = 0 := by
  unfold k8_pay1
  simp only [shapeCast_self]
  rw [broadcast_apply]
  exact Ideal.ofBits_zero_f32
theorem zero_counts8 (i : S512x1.Idx) : k8_pay2 (F := Ideal) i = 0 := by
  unfold k8_pay2
  simp only [shapeCast_self]
  rw [broadcast_apply]
  exact Ideal.ofBits_zero_f32

/-- Node m's contribution to graph g: its value if its id is the word of g, else zero; zero for a number that is no node. -/
def nodeTerm8 (ids : S50000x1.Idx → BitVec 32) (val : Fin 50000 → EReal) (g : Fin 512) (m : ℕ) : EReal :=
  if hm : m < 50000 then (if ids (ix2 (⟨m, hm⟩ : Fin 50000) (0 : Fin 1)) = BitVec.ofNat 32 g.val then val ⟨m, hm⟩ else 0) else 0

variable (V : (c : Dev nD) → (b : Ref sig .tc) → Buf (Elt Ideal) ((c : Thread nD τ).loc b))

theorem block_indices8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Row k of point t's blocks is node 2000 t + k; the weight, bias and output blocks are their whole arrays. -/
theorem node_block8 (c : Dev nD) (t : Fin cfg8.N) (k : Fin 2000) (f : Fin 256) (hm : 2000 * t.val + k.val < 50000) :
    xblk8 V c t (ix2 k f) = V c main_v71 (ix2 (⟨2000 * t.val + k.val, hm⟩ : Fin 50000) f) := by
  obtain ⟨e00, e01, -, -, -, -, -, -, -, -⟩ := block_indices8 t
  refine congrArg (V c main_v71) (funext fun a => Fin.ext ?_)
  match a with
  | ⟨0, _⟩ => show win8_0.index t (0 : Fin 2) * 2000 + 1 * k.val = 2000 * t.val + k.val; omega
  | ⟨1, _⟩ => show win8_0.index t (1 : Fin 2) * 256 + 1 * f.val = f.val; omega

theorem id_block8 (c : Dev nD) (t : Fin cfg8.N) (k : Fin 2000) (hm : 2000 * t.val + k.val < 50000) :
    gblk8 V c t (ix2 k (0 : Fin 1)) = V c main_v72 (ix2 (⟨2000 * t.val + k.val, hm⟩ : Fin 50000) (0 : Fin 1)) := by
  obtain ⟨-, -, e10, e11, -, -, -, -, -, -⟩ := block_indices8 t
  refine congrArg (V c main_v72) (funext fun a => Fin.ext ?_)
  match a with
  | ⟨0, _⟩ => show win8_1.index t (0 : Fin 2) * 2000 + 1 * k.val = 2000 * t.val + k.val; omega
  | ⟨1, _⟩ => show win8_1.index t (1 : Fin 2) * 1 + 1 * 0 = 0; omega

theorem weight_block8 (c : Dev nD) (t : Fin cfg8.N) : iblk8 V c 2 t = V c main_arg11 := by
  obtain ⟨-, -, -, -, e20, e21, -, -, -, -⟩ := block_indices8 t
  funext j
  refine congrArg (V c main_arg11) (funext fun a => Fin.ext ?_)
  match a with
  | ⟨0, _⟩ => show win8_2.index t (0 : Fin 2) * 256 + 1 * (j 0).val = (j 0).val; omega
  | ⟨1, _⟩ => show win8_2.index t (1 : Fin 2) * 10 + 1 * (j 1).val = (j 1).val; omega

theorem bias_block8 (c : Dev nD) (t : Fin cfg8.N) : iblk8 V c 3 t = V c main_v73 := by
  obtain ⟨-, -, -, -, -, -, e30, e31, -, -⟩ := block_indices8 t
  funext j
  refine congrArg (V c main_v73) (funext fun a => Fin.ext ?_)
  match a with
  | ⟨0, _⟩ => show win8_3.index t (0 : Fin 2) * 1 + 1 * (j 0).val = (j 0).val; omega
  | ⟨1, _⟩ => show win8_3.index t (1 : Fin 2) * 10 + 1 * (j 1).val = (j 1).val; omega

/-- An accumulator that starts from zero and at point t gains the contributions of nodes 2000 t … 2000 t + 1999 holds, after the last point, those of all 50000 nodes. -/
theorem total8 (c : Dev nD) (val : Fin 50000 → EReal) (blk : Fin cfg8.N → Fin 2000 → EReal) (g : Fin 512) (a : Fin (cfg8.N + 1) → EReal)
    (h0 : a 0 = 0) (hblk : ∀ (t : Fin cfg8.N) (k : Fin 2000) (hm : 2000 * t.val + k.val < 50000), blk t k = val ⟨2000 * t.val + k.val, hm⟩)
    (hs : ∀ t : Fin cfg8.N, a t.succ = a t.castSucc + ∑ k : Fin 2000, if gblk8 V c t (ix2 k (0 : Fin 1)) = BitVec.ofNat 32 g.val then blk t k else 0) :
    a (Fin.last _) = ∑ n : Fin 50000, if V c main_v72 (ix2 n (0 : Fin 1)) = BitVec.ofNat 32 g.val then val n else 0 := by
  have upto : ∀ s, a s = ∑ m ∈ Finset.range (2000 * s.val), nodeTerm8 (V c main_v72) val g m := fun s => by
    induction s using Fin.induction with
    | zero => rw [h0, Fin.val_zero, Nat.mul_zero, Finset.range_zero, Finset.sum_empty]
    | succ t ih =>
      have hN : t.val < 25 := lt_of_lt_of_eq t.isLt (show cfg8.N = 25 from N_8)
      rw [hs, ih, Fin.val_succ, Fin.coe_castSucc, mul_add_one, Finset.sum_range_add,
        ← Fin.sum_univ_eq_sum_range (fun k => nodeTerm8 (V c main_v72) val g (2000 * t.val + k)) 2000]
      refine congrArg (_ + ·) (Finset.sum_congr rfl fun k _ => ?_)
      have hm : 2000 * t.val + k.val < 50000 := by have := k.isLt; omega
      unfold nodeTerm8
      rw [dif_pos hm, id_block8 V c t k hm, hblk t k hm]
  rw [upto, Fin.val_last, show cfg8.N = 25 from N_8]
  show ∑ m ∈ Finset.range 50000, nodeTerm8 (V c main_v72) val g m = _
  rw [← Fin.sum_univ_eq_sum_range (fun m => nodeTerm8 (V c main_v72) val g m) 50000]
  exact Finset.sum_congr rfl fun n _ => by unfold nodeTerm8; rw [dif_pos n.isLt]

theorem sums_total8 (c : Dev nD) : sum8 V c (Fin.last _) = Cert.Spec.segSum (V c main_v72) (V c main_v71) := by
  funext i
  obtain ⟨g, f, rfl⟩ : ∃ (g : Fin 512) (f : Fin 256), i = ix2 g f := ⟨i 0, i 1, eq_ix2 i⟩
  exact total8 V c (fun n => V c main_v71 (ix2 n f)) (fun t k => xblk8 V c t (ix2 k f)) g (fun s => sum8 V c s (ix2 g f)) (zero_sums8 (ix2 g f))
    (fun t k hm => node_block8 V c t k f hm) fun t => (congrFun (sum8_succ V c t) _).trans (block_sums8 _ _ _ g f)

theorem counts_total8 (c : Dev nD) : cnt8 V c (Fin.last _) = Cert.Spec.segCount (V c main_v72) := by
  funext i
  obtain ⟨g, z, rfl⟩ : ∃ (g : Fin 512) (z : Fin 1), i = ix2 g z := ⟨i 0, i 1, eq_ix2 i⟩
  obtain rfl : z = 0 := Subsingleton.elim _ _
  exact total8 V c (fun _ => 1) (fun _ _ => 1) g (fun s => cnt8 V c s (ix2 g (0 : Fin 1))) (zero_counts8 (ix2 g (0 : Fin 1)))
    (fun _ _ _ => rfl) fun t => (congrFun (cnt8_succ V c t) _).trans (block_counts8 _ _ g)

theorem last_block_covers8 (i : S512x10.Idx) :
    ∃ t : Fin cfg8.N, (cfg8.win 4).flush t = true ∧ i ∈ ((cfg8.win 4).blk t).view.set := by
  have hi0 : (i 0).val < 512 := (i 0).isLt
  have hi1 : (i 1).val < 10 := (i 1).isLt
  have hlt : 24 < cfg8.N := by show _ < grid8.N; rw [N_8]; omega
  obtain ⟨-, -, -, -, -, -, -, -, e40, e41⟩ := block_indices8 ⟨24, hlt⟩
  refine ⟨⟨24, hlt⟩, (flush8_4 _).mpr rfl, ?_⟩
  show i ∈ ((View.whole main_v74).slice (win8_4.rect ⟨24, hlt⟩)).set
  rw [View.set_slice_whole, Rect.mem_set_unit]
  intro a
  match a with
  | ⟨0, _⟩ =>
    show win8_4.index ⟨24, hlt⟩ (0 : Fin 2) * 512 ≤ (i 0).val ∧ (i 0).val < win8_4.index ⟨24, hlt⟩ (0 : Fin 2) * 512 + 512
    rw [e40]; omega
  | ⟨1, _⟩ =>
    show win8_4.index ⟨24, hlt⟩ (1 : Fin 2) * 10 ≤ (i 1).val ∧ (i 1).val < win8_4.index ⟨24, hlt⟩ (1 : Fin 2) * 10 + 10
    rw [e41]; omega

theorem flushedP8 (c : Dev nD) (t : Fin cfg8.N) (hf : (cfg8.win 4).flush t = true) :
    (dat8 (F := Ideal) V c).flushed 4 t = ((cfg8.win 4).blk t).view.read (Elt Ideal)
      (Gen.k8_pay6 (F := Ideal) (Cert.Spec.segSum (V c main_v72) (V c main_v71)) (Cert.Spec.segCount (V c main_v72)) (V c main_arg11) (V c main_v73)) := by
  have hN : t.val < 25 := lt_of_lt_of_eq t.isLt (show cfg8.N = 25 from N_8)
  have h24 : t.val = 24 := by have := (flush8_4 t).mp hf; omega
  obtain ⟨-, -, -, -, -, -, -, -, e40, e41⟩ := block_indices8 t
  have hl : t.succ = Fin.last _ := Fin.ext (by rw [Fin.val_succ, h24, Fin.val_last]; exact N_8.symm)
  show (cfg8.win 4).cut (grid8.coords t) (k8_pay6 (F := Ideal) (sum8 V c t.succ) (cnt8 V c t.succ) (iblk8 V c 2 t) (iblk8 V c 3 t)) = _
  rw [hl, sums_total8, counts_total8, weight_block8, bias_block8]
  generalize Gen.k8_pay6 (F := Ideal) (Cert.Spec.segSum (V c main_v72) (V c main_v71)) (Cert.Spec.segCount (V c main_v72)) (V c main_arg11) (V c main_v73) = G
  funext j
  show G j = G (((cfg8.win 4).blk t).view.emb j)
  refine congrArg G (funext fun a => Fin.ext ?_)
  match a with
  | ⟨0, _⟩ => show (j 0).val = win8_4.index t (0 : Fin 2) * 512 + 1 * (j 0).val; omega
  | ⟨1, _⟩ => show (j 1).val = win8_4.index t (1 : Fin 2) * 10 + 1 * (j 1).val; omega

/-- The output's one block is the whole array, and the last point leaves it. -/
theorem arrP8 (V : (c : Dev nD) → (b : Ref sig .tc) → Buf (Elt Ideal) ((c : Thread nD τ).loc b)) (c : Dev nD) :
    (Cert.KernelIdeal.Hand.dat8 (F := Ideal) V c).arrAt 4 cfg8.N
      = Gen.k8_pay6 (F := Ideal) (Cert.Spec.segSum (V c main_v72) (V c main_v71)) (Cert.Spec.segCount (V c main_v72)) (V c main_arg11) (V c main_v73) :=
  (dat8 (F := Ideal) V c).arrAt_eq_of_cover 4 _ (fun t hf => flushedP8 V c t hf) last_block_covers8

end Cert.KernelIdeal.Val

end
-- ==== Proof.Value.RefScatter.lean ====
import Idealize.ShloMosaic.Lib.ValueIdx
import Idealize.ShloMosaic.Lib.ValueIdxRank1
import Idealize.ShloMosaic.PureOps.Ideal.Laws
import Idealize.ShloMosaic.Lib.StableHlo.Predicate
import Idealize.ShloMosaic.Lib.IdealHost
import proofs.«427753_j34041910788666_1_alg».proof.Proof.RefRun
import proofs.«427753_j34041910788666_1_alg».proof.Proof.Value.PoolSpec

noncomputable section

namespace Cert.KernelIdeal.Val

open Cert.ReferenceIdeal Cert.ReferenceIdeal.Gen Idealize.ShloMosaic Idealize.ShloMosaic.TcCoe Idealize.SL.Sem Idealize.ShloMosaic.StableHlo
open Idealize.ShloMosaic.ValueIdx
open scoped BigOperators

namespace RefScatter

/-- An update lands on `r` exactly when on every axis its start plus its window coordinate is `r`'s coordinate. -/
theorem resultIdx?_eq_some_iff {s si u : Shape} (d : ScatterDims s si u) {w : Nat} (j : u.Idx) (idx : IVec si w)
    (r : s.Idx) :
    d.resultIdx? j idx = some r ↔ ∀ a, d.start j idx a + (d.window j a : Nat) = ((r a).val : Int) := by
  unfold ScatterDims.resultIdx?
  constructor
  · intro he a
    split at he
    · rename_i h
      have e : (d.start j idx a + (d.window j a : Nat)).toNat = (r a).val :=
        congrArg Fin.val (congrFun (Option.some.inj he) a)
      have := (h a).1
      omega
    · exact absurd he (by simp)
  · intro h
    rw [dif_pos fun a => by have := h a; have := (r a).isLt; omega]
    exact congrArg some (funext fun a => Fin.ext (by
      show (d.start j idx a + (d.window j a : Nat)).toNat = (r a).val
      have := h a; omega))

abbrev rowScatter (G N C : Nat)
    (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

section Row
variable {G N C w : Nat} (wf : ScatterDims.WF ⟨2, ![G, C]⟩ ⟨2, ![N, 1]⟩ ⟨2, ![N, C]⟩ [1] [0] [0] 1)
  (idx : IVec ⟨2, ![N, 1]⟩ w)

theorem rowScatter_start0 (n : Fin N) (c : Fin C) :
    (rowScatter G N C wf).start (ix2 n c) idx 0 = (idx (ix2 n (0 : Fin 1))).toInt :=
  (dif_pos (show (0 : Fin 2) ∈ ([0] : List (Fin 2)) from List.mem_singleton.mpr rfl)).trans
    (congrArg (fun k => (idx k).toInt) (funext fun b => Fin.ext (match b with | ⟨0, _⟩ => rfl | ⟨1, _⟩ => rfl)))

theorem rowScatter_start1 (n : Fin N) (c : Fin C) :
    (rowScatter G N C wf).start (ix2 n c) idx 1 = 0 :=
  dif_neg (show ¬ (1 : Fin 2) ∈ ([0] : List (Fin 2)) by decide)

theorem rowScatter_window0 (n : Fin N) (c : Fin C) :
    (rowScatter G N C wf).window (ix2 n c) 0 = 0 :=
  dif_neg (show ¬ (0 : Fin 2) ∈ ([1] : List (Fin 2)) by decide)

theorem rowScatter_window1 (n : Fin N) (c : Fin C) :
    (rowScatter G N C wf).window (ix2 n c) 1 = c.val :=
  (dif_pos (show (1 : Fin 2) ∈ ([1] : List (Fin 2)) from List.mem_singleton.mpr rfl)).trans rfl

theorem rowScatter_resultIdx_iff (n : Fin N) (c : Fin C) (g : Fin G) (f : Fin C) :
    (rowScatter G N C wf).resultIdx? (ix2 n c) idx = some (ix2 g f) ↔
      (idx (ix2 n (0 : Fin 1))).toInt = (g.val : Int) ∧ c = f := by
  rw [resultIdx?_eq_some_iff, Fin.forall_fin_two, rowScatter_start0, rowScatter_start1, rowScatter_window0,
    rowScatter_window1]
  show (idx (ix2 n (0 : Fin 1))).toInt + ((0 : Nat) : Int) = (g.val : Int) ∧ (0 : Int) + (c.val : Int) = (f.val : Int) ↔ _
  exact ⟨fun ⟨h0, h1⟩ => ⟨by omega, Fin.ext (by omega)⟩, fun ⟨h0, h1⟩ => ⟨by omega, by rw [h1]; omega⟩⟩

/-- An accumulating scatter adds to an entry the updates that land on it: here those of the rows whose index, read signed, is g. -/
theorem hostScatterAdd_rowScatter (x : (⟨2, ![G, C]⟩ : Shape).Idx → EReal) (upd : (⟨2, ![N, C]⟩ : Shape).Idx → EReal)
    (g : Fin G) (f : Fin C) :
    Ideal.hostScatterAdd (rowScatter G N C wf) x idx upd (ix2 g f) =
      x (ix2 g f) + ∑ n : Fin N, if (idx (ix2 n (0 : Fin 1))).toInt = (g.val : Int) then upd (ix2 n f) else 0 := by
  unfold Ideal.hostScatterAdd
  congr 1
  rw [Finset.sum_filter, sum_idx2]
  refine Finset.sum_congr rfl fun n _ => ?_
  simp only [rowScatter_resultIdx_iff]
  by_cases hP : (idx (ix2 n (0 : Fin 1))).toInt = (g.val : Int)
  · simp only [hP, true_and, if_true]
    rw [Finset.sum_ite_eq' Finset.univ f (fun c => upd (ix2 n c)), if_pos (Finset.mem_univ f)]
  · simp only [hP, false_and, if_false, Finset.sum_const_zero]

end Row

abbrev entryScatter (G N : Nat)
    (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

section Entry
variable {G N w : Nat} (wf : ScatterDims.WF ⟨1, ![G]⟩ ⟨2, ![N, 1]⟩ ⟨1, ![N]⟩ [] [0] [0] 1)
  (idx : IVec ⟨2, ![N, 1]⟩ w)

theorem entryScatter_start0 (n : Fin N) :
    (entryScatter G N wf).start (ix1 n) idx 0 = (idx (ix2 n (0 : Fin 1))).toInt :=
  (dif_pos (show (0 : Fin 1) ∈ ([0] : List (Fin 1)) from List.mem_singleton.mpr rfl)).trans
    (congrArg (fun k => (idx k).toInt) (funext fun b => Fin.ext (match b with | ⟨0, _⟩ => rfl | ⟨1, _⟩ => rfl)))

theorem entryScatter_window0 (n : Fin N) :
    (entryScatter G N wf).window (ix1 n) 0 = 0 :=
  dif_neg (show ¬ (0 : Fin 1) ∈ ([] : List (Fin 1)) from List.not_mem_nil)

theorem entryScatter_resultIdx_iff (n : Fin N) (g : Fin G) :
    (entryScatter G N wf).resultIdx? (ix1 n) idx = some (ix1 g) ↔
      (idx (ix2 n (0 : Fin 1))).toInt = (g.val : Int) := by
  rw [resultIdx?_eq_some_iff, Fin.forall_fin_one, entryScatter_start0, entryScatter_window0]
  show (idx (ix2 n (0 : Fin 1))).toInt + ((0 : Nat) : Int) = (g.val : Int) ↔ _
  exact ⟨fun h => by omega, fun h => by omega⟩

theorem hostScatterAdd_entryScatter (x : (⟨1, ![G]⟩ : Shape).Idx → EReal) (upd : (⟨1, ![N]⟩ : Shape).Idx → EReal)
    (g : Fin G) :
    Ideal.hostScatterAdd (entryScatter G N wf) x idx upd (ix1 g) =
      x (ix1 g) + ∑ n : Fin N, if (idx (ix2 n (0 : Fin 1))).toInt = (g.val : Int) then upd (ix1 n) else 0 := by
  unfold Ideal.hostScatterAdd
  congr 1
  rw [Finset.sum_filter, ← Equiv.sum_comp (idxEquiv1 (n := N)).symm]
  refine Finset.sum_congr rfl fun n _ => ?_
  show (if (entryScatter G N wf).resultIdx? (ix1 n) idx = some (ix1 g) then upd (ix1 n) else 0) = _
  simp only [entryScatter_resultIdx_iff]

end Entry

/-- Below 2³¹ a word read signed is g exactly when it is the word of g. -/
theorem toInt_eq_natCast_iff (a : BitVec 32) (g : Nat) (hg : g < 2 ^ 31) :
    a.toInt = (g : Int) ↔ a = BitVec.ofNat 32 g := by
  constructor
  · intro h
    exact BitVec.eq_of_toInt_eq (h.trans (StableHlo.Predicate.toInt_ofNat_small g hg).symm)
  · rintro rfl
    exact StableHlo.Predicate.toInt_ofNat_small g hg

end RefScatter

open RefScatter

theorem RefScatter.val_main_v121_eq (x2 : IVec S50000 32) :
    Cert.ReferenceIdeal.Read.val_main_v121 (F := Ideal) x2 = Cert.ReferenceIdeal.Read.val_main_v117 (F := Ideal) x2 := rfl

theorem scatter_sums (x2 : IVec S50000 32) (h : FVec Ideal S50000x256 .f32) :
    Host.scatterAdd (F := Ideal) scatter_S512x256_S50000x1_S50000x256_1_0_0_1 (Cert.ReferenceIdeal.Read.val_main_v116 (F := Ideal))
        (Cert.ReferenceIdeal.Read.val_main_v117 (F := Ideal) x2) h
      = Cert.Spec.segSum (Cert.ReferenceIdeal.Read.val_main_v117 (F := Ideal) x2) h := by
  generalize Cert.ReferenceIdeal.Read.val_main_v117 (F := Ideal) x2 = ids
  funext i
  obtain ⟨g, f, rfl⟩ : ∃ (g : Fin 512) (f : Fin 256), i = ix2 g f := ⟨i 0, i 1, eq_ix2 i⟩
  refine (hostScatterAdd_rowScatter (G := 512) (N := 50000) (C := 256)
    scatter_S512x256_S50000x1_S50000x256_1_0_0_1.wf ids (Cert.ReferenceIdeal.Read.val_main_v116 (F := Ideal)) h g f).trans ?_
  rw [Cert.ReferenceIdeal.Read.val_main_v116_apply, Cert.ReferenceIdeal.Read.val_main_cst_18_apply]
  show Ideal.ofBits .f32 0x00000000#32 + _ =
    ∑ n : Fin 50000, if ids (ix2 n (0 : Fin 1)) = BitVec.ofNat 32 g.val then h (ix2 n f) else 0
  rw [Ideal.ofBits_zero_f32, zero_add]
  refine Finset.sum_congr rfl fun n _ => ?_
  exact if_congr (toInt_eq_natCast_iff _ g.val (by have := g.isLt; omega)) rfl rfl

theorem scatter_counts (x2 : IVec S50000 32) :
    Cert.ReferenceIdeal.Read.val_main_v122 (F := Ideal) x2
      = fun i => Cert.Spec.segCount (Cert.ReferenceIdeal.Read.val_main_v117 (F := Ideal) x2) (ix2 (i 0) (0 : Fin 1)) := by
  unfold Cert.ReferenceIdeal.Read.val_main_v122
  rw [val_main_v121_eq]
  generalize Cert.ReferenceIdeal.Read.val_main_v117 (F := Ideal) x2 = ids
  funext i
  obtain ⟨g, rfl⟩ : ∃ g : Fin 512, i = ix1 g := ⟨i 0, eq_ix1 i⟩
  refine (hostScatterAdd_entryScatter (G := 512) (N := 50000)
    scatter_S512_S50000x1_S50000_n_0_0_1.wf ids (Cert.ReferenceIdeal.Read.val_main_v120 (F := Ideal))
    (Cert.ReferenceIdeal.Read.val_main_v119 (F := Ideal)) g).trans ?_
  rw [Cert.ReferenceIdeal.Read.val_main_v120_apply, Cert.ReferenceIdeal.Read.val_main_cst_20_apply]
  show Ideal.ofBits .f32 0x00000000#32 + _ =
    ∑ n : Fin 50000, if ids (ix2 n (0 : Fin 1)) = BitVec.ofNat 32 g.val then (1 : EReal) else 0
  rw [Ideal.ofBits_zero_f32, zero_add]
  refine Finset.sum_congr rfl fun n _ => ?_
  rw [Cert.ReferenceIdeal.Read.val_main_v119_apply, Cert.ReferenceIdeal.Read.val_main_cst_19_apply]
  show (if _ then Ideal.ofBits .f32 0x3F800000#32 else 0) = _
  rw [Ideal.ofBits_one_f32]
  exact if_congr (toInt_eq_natCast_iff _ g.val (by have := g.isLt; omega)) rfl rfl

end Cert.KernelIdeal.Val

end
-- ==== Proof.Value.PoolBridge.lean ====
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«427753_j34041910788666_1_alg».proof.Proof.Gen.KernelIdeal.Skeleton
import proofs.«427753_j34041910788666_1_alg».proof.Proof.RefRun
import proofs.«427753_j34041910788666_1_alg».proof.Proof.LibAllReal

noncomputable section

namespace Cert.KernelIdeal.Val

open Idealize.ShloMosaic Idealize.ShloMosaic.ValueIdx Idealize.SL.Sem
open Cert.KernelIdeal.Gen Cert.Spec
open scoped BigOperators

section RefTail
open Cert.ReferenceIdeal.Gen Cert.ReferenceIdeal.Read

def refLogits (S : FVec Ideal S512x256 .f32) (C : FVec Ideal S512 .f32) (x11 : FVec Ideal S256x10 .f32)
    (x12 : FVec Ideal S10 .f32) : FVec Ideal Cert.ReferenceIdeal.S512x10 .f32 :=
  addf (F := Ideal)
    (Host.dotGeneral (F := Ideal) Cert.ReferenceIdeal.dot_S512x256_S256x10_S512x10_1_0_0_1_n_n none
      (Host.divf (F := Ideal) S
        (broadcastInDim Cert.ReferenceIdeal.S512x256 ![0, 1] bcast_S512x1_S512x256_0_1
          (broadcastInDim Cert.ReferenceIdeal.S512x1 ![0] bcast_S512_S512x1_0
            (maximumf (F := Ideal) C (val_main_v123 (F := Ideal))))))
      x11)
    (val_main_v130 (F := Ideal) x12)

def refMax (x : FVec Ideal Cert.ReferenceIdeal.S512x10 .f32) : FVec Ideal Cert.ReferenceIdeal.S512 .f32 :=
  maximumf (F := Ideal) (val_main_call4_v1 (F := Ideal))
    (Host.reduce FloatOps.maximumf x (val_main_call4_cst (F := Ideal)) reducesTo_S512x10_S512_d1
      Cert.ReferenceIdeal.Gen.h_S_)

def refShift (x : FVec Ideal Cert.ReferenceIdeal.S512x10 .f32) : FVec Ideal Cert.ReferenceIdeal.S512x10 .f32 :=
  subf (F := Ideal) x
    (broadcastInDim Cert.ReferenceIdeal.S512x10 ![0, 1] bcast_S512x1_S512x10_0_1
      (broadcastInDim Cert.ReferenceIdeal.S512x1 ![0] bcast_S512_S512x1_0 (refMax x)))

def refLsm (x : FVec Ideal Cert.ReferenceIdeal.S512x10 .f32) : FVec Ideal Cert.ReferenceIdeal.S512x10 .f32 :=
  subf (F := Ideal) (refShift x)
    (broadcastInDim Cert.ReferenceIdeal.S512x10 ![0, 1] bcast_S512x1_S512x10_0_1
      (Host.log (F := Ideal)
        (broadcastInDim Cert.ReferenceIdeal.S512x1 ![0] bcast_S512_S512x1_0
          (Host.reduceAdd (F := Ideal) (Host.exp (F := Ideal) (refShift x))
            (val_main_call4_cst_1 (F := Ideal)) reducesTo_S512x10_S512_d1 Cert.ReferenceIdeal.Gen.h_S_))))

def refTail (S : FVec Ideal S512x256 .f32) (C : FVec Ideal S512 .f32) (x11 : FVec Ideal S256x10 .f32)
    (x12 : FVec Ideal S10 .f32) : FVec Ideal S512x10 .f32 :=
  refLsm (refLogits S C x11 x12)

theorem val_v132_eq_refTail {x0 x1 x2 x3 x4 x5 x6 x7 x8 x9 x10 x11 x12} :
    val_main_v132 (F := Ideal) x0 x1 x2 x3 x4 x5 x6 x7 x8 x9 x10 x11 x12
      = refTail (val_main_v118 (F := Ideal) x0 x1 x2 x3 x4 x5 x6 x7 x8 x9 x10) (val_main_v122 (F := Ideal) x2) x11 x12 := by
  unfold val_main_v132 val_main_call4_v10 val_main_call4_v9 val_main_call4_v8 val_main_call4_v7 val_main_call4_v6
    val_main_call4_v5 val_main_call4_v4 val_main_call4_v3 val_main_call4_v2 val_main_call4_v0 val_main_v131
    val_main_v128 val_main_v127 val_main_v126 val_main_v125 val_main_v124
  rfl

end RefTail

section Layout
variable {α : Type}

/-- Along an axis that keeps its extent a broadcast keeps the coordinate; an extent of one has only coordinate zero. -/
theorem bcast_coord {a : ℕ} (p : Fin a) : p.val = if a = 1 then 0 else p.val := by
  split
  · have := p.isLt; omega
  · rfl

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => exact bcast_coord p
  | ⟨1, _⟩ => rfl

theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ => exact bcast_coord p
  | ⟨1, _⟩ => rfl

theorem broadcastInDim_a_a1_apply {a : ℕ} (v : (⟨1, ![a]⟩ : Shape).Idx → α)
    (h : (⟨1, ![a]⟩ : Shape).BroadcastsInDim ⟨2, ![a, 1]⟩ ![0]) (p : Fin a) (c : Fin 1) :
    broadcastInDim ⟨2, ![a, 1]⟩ ![0] h v (ix2 p c) = v (ix1 p) := by
  refine broadcastInDim_apply _ h v (ix2 p c) (ix1 p) fun ax => ?_
  match ax with
  | ⟨0, _⟩ => exact bcast_coord p

theorem shapeCast_a_a1_apply {a : ℕ} (x : (⟨1, ![a]⟩ : Shape).Idx → α)
    (h : (⟨1, ![a]⟩ : Shape).ShapeCasts ⟨2, ![a, 1]⟩) (p : Fin a) (c : Fin 1) :
    shapeCast ⟨2, ![a, 1]⟩ x h (ix2 p c) = x (ix1 p) :=
  shapeCast_apply x h _ _ (by
    have hc : c.val = 0 := by omega
    rw [Shape.rowMajor_val_two, Shape.rowMajor_val_one]
    show p.val = p.val * 1 + c.val
    rw [hc, Nat.mul_one, Nat.add_zero])

theorem lift_row {m n : ℕ} (h : (⟨2, ![m, n]⟩ : Shape).Reduces [(1 : Fin 2)] ⟨1, ![m]⟩) (g : Fin m) (k : Fin n) :
    h.lift (ix1 g) k = ix2 g k := by
  funext c
  apply Fin.ext
  match c with
  | ⟨0, _⟩ => rfl
  | ⟨1, _⟩ => rfl

end Layout

section Pointwise
variable {s : Shape} {φ : FTy}

theorem exp_apply (a : FVec Ideal s φ) (i : s.Idx) : Idealize.ShloMosaic.exp (F := Ideal) a i = Ideal.exp (a i) := rfl
theorem log_apply (a : FVec Ideal s φ) (i : s.Idx) : Idealize.ShloMosaic.log (F := Ideal) a i = Ideal.log (a i) := rfl
theorem hostExp_apply (a : FVec Ideal s φ) (i : s.Idx) : Host.exp (F := Ideal) a i = Ideal.exp (a i) := rfl
theorem hostLog_apply (a : FVec Ideal s φ) (i : s.Idx) : Host.log (F := Ideal) a i = Ideal.log (a i) := rfl

end Pointwise

theorem ofBits_f32_neg_inf : Ideal.ofBits .f32 0xFF800000#32 = ⊥ := by simp [Ideal.ofBits, Ideal.ieee]

/-- The maximum of a nonempty finite family is one of its members. -/
theorem fold_max_bot_real {ι : Type} (s : Finset ι) (hs : s.Nonempty) (f : ι → EReal)
    (hf : ∀ i, ∃ r : ℝ, f i = (r : EReal)) : ∃ ρ : ℝ, s.fold max ⊥ f = (ρ : EReal) := by
  obtain ⟨i, -, hi⟩ := Finset.exists_mem_eq_sup s hs f
  exact (hf i).imp fun r hr => (show s.fold max ⊥ f = s.sup f from rfl).trans (hi.trans hr)

/-- For real `x` with maximum `m`, `x_k - (log (∑ exp (x_j - m)) + m) = (x_k - m) - log (∑ exp (x_j - m))`: every term is a real number. -/
theorem lsm_row {n : ℕ} (hn : 0 < n) (x : Fin n → EReal) (hx : ∀ j, ∃ r : ℝ, x j = (r : EReal)) (k : Fin n) :
    x k - (Ideal.log (∑ j, Ideal.exp (x j - Finset.univ.fold max ⊥ x)) + Finset.univ.fold max ⊥ x)
      = (x k - max ⊥ (Finset.univ.fold max ⊥ x))
          - Ideal.log (0 + ∑ j, Ideal.exp (x j - max ⊥ (Finset.univ.fold max ⊥ x))) := by
  haveI : Nonempty (Fin n) := ⟨⟨0, hn⟩⟩
  obtain ⟨ρ, hρ⟩ := fold_max_bot_real Finset.univ Finset.univ_nonempty x hx
  rw [hρ, max_eq_right bot_le, zero_add]
  choose r hr using hx
  obtain ⟨σ, hσ0, hσ⟩ : ∃ σ : ℝ, 0 < σ ∧ ∑ j, Ideal.exp (x j - (ρ : EReal)) = (σ : EReal) :=
    Finset.sum_induction_nonempty _ (fun y => ∃ σ : ℝ, 0 < σ ∧ y = (σ : EReal))
      (fun _ _ ⟨a, ha0, ha⟩ ⟨b, hb0, hb⟩ => ⟨a + b, add_pos ha0 hb0, by rw [ha, hb, EReal.coe_add]⟩)
      Finset.univ_nonempty
      (fun j _ => ⟨Real.exp (r j - ρ), Real.exp_pos _, by rw [hr j, ← EReal.coe_sub, Ideal.exp_coe]⟩)
  rw [hσ, Ideal.log_coe, if_neg (not_le.mpr hσ0), hr k, ← EReal.coe_add, ← EReal.coe_sub, ← EReal.coe_sub,
    ← EReal.coe_sub]
  exact congrArg _ (by ring)

def kerLogits (S : FVec Ideal S512x256 .f32) (Ccol : FVec Ideal S512x1 .f32) (W : FVec Ideal S256x10 .f32)
    (brow : FVec Ideal S1x10 .f32) : FVec Ideal S512x10 .f32 :=
  addf (F := Ideal)
    (matmul (F := Ideal) dot_S512x256_S256x10_S512x10_1_0_0_1_n_n none
      (truncf (F := Ideal) .bf16
        (divf (F := Ideal) S
          (broadcastTo S512x256
            (maximumf (F := Ideal) Ccol (broadcast S512x1 (Scalar.ofBits (F := Ideal) .f32 0x3F800000#32)))
            broadcasts_S512x1_S512x256))
        bitsLt_bf16_f32)
      (truncf (F := Ideal) .bf16 W bitsLt_bf16_f32)
      (constant (F := Ideal) S512x10 .f32 0x00000000#32))
    (broadcastTo S512x10 (shapeCast S1x10 brow shapeCasts_S1x10_S1x10) broadcasts_S1x10_S512x10)

def kerMax (x : FVec Ideal S512x10 .f32) : FVec Ideal S512x1 .f32 :=
  shapeCast S512x1
    (multiReduction (F := Ideal) .maximumf [1] S512 x 0xFF800000#32 reduces_S512x10_S512 (.inl rfl) rfl)
    shapeCasts_S512_S512x1

def kerSum (x : FVec Ideal S512x10 .f32) : FVec Ideal S512 .f32 :=
  multiReduction (F := Ideal) .add [1] S512
    (Idealize.ShloMosaic.exp (F := Ideal)
      (subf (F := Ideal) x (broadcastTo S512x10 (kerMax x) broadcasts_S512x1_S512x10)))
    0x00000000#32 reduces_S512x10_S512 (.inl rfl) rfl

def kerLsm (x : FVec Ideal S512x10 .f32) : FVec Ideal S512x10 .f32 :=
  subf (F := Ideal) x
    (broadcastTo S512x10
      (addf (F := Ideal)
        (Idealize.ShloMosaic.log (F := Ideal) (shapeCast S512x1 (kerSum x) shapeCasts_S512_S512x1))
        (kerMax x))
      broadcasts_S512x1_S512x10)

theorem k8_pay6_eq (S : FVec Ideal S512x256 .f32) (Ccol : FVec Ideal S512x1 .f32) (W : FVec Ideal S256x10 .f32)
    (brow : FVec Ideal S1x10 .f32) :
    Gen.k8_pay6 (F := Ideal) S Ccol W brow = kerLsm (kerLogits S Ccol W brow) := rfl

def rowMax (x : FVec Ideal S512x10 .f32) (g : Fin 512) : EReal :=
  Finset.univ.fold max (Ideal.ofBits .f32 0xFF800000#32) (fun j : Fin 10 => x (ix2 g j))

theorem kerMax_apply (x : FVec Ideal S512x10 .f32) (g : Fin 512) (c : Fin 1) :
    kerMax x (ix2 g c) = rowMax x g := by
  unfold kerMax rowMax
  rw [shapeCast_a_a1_apply]
  refine (Ideal.multiReduction_maximumf_single x _ reduces_S512x10_S512 _ _ (ix1 g)).trans ?_
  exact Finset.fold_congr (fun j _ => congrArg x (lift_row reduces_S512x10_S512 g j))

theorem kerSum_apply (x : FVec Ideal S512x10 .f32) (g : Fin 512) :
    kerSum x (ix1 g) = ∑ j : Fin 10, Ideal.exp (x (ix2 g j) - rowMax x g) := by
  have hterm : ∀ j : Fin 10,
      Idealize.ShloMosaic.exp (F := Ideal)
          (subf (F := Ideal) x (broadcastTo S512x10 (kerMax x) broadcasts_S512x1_S512x10))
          (reduces_S512x10_S512.lift (ix1 g) j)
        = Ideal.exp (x (ix2 g j) - rowMax x g) := fun j => by
    rw [lift_row reduces_S512x10_S512 g j, exp_apply, subf_apply, broadcastTo_a1_ab_apply, kerMax_apply]
  unfold kerSum
  refine (Ideal.multiReduction_add_single _ _ reduces_S512x10_S512 _ _ (ix1 g)).trans ?_
  exact Finset.sum_congr rfl (fun j _ => hterm j)

theorem kerLsm_apply (x : FVec Ideal S512x10 .f32) (g : Fin 512) (k : Fin 10) :
    kerLsm x (ix2 g k)
      = x (ix2 g k) - (Ideal.log (∑ j : Fin 10, Ideal.exp (x (ix2 g j) - rowMax x g)) + rowMax x g) := by
  unfold kerLsm
  rw [subf_apply, broadcastTo_a1_ab_apply, addf_apply, kerMax_apply, log_apply, shapeCast_a_a1_apply, kerSum_apply]

section RefRead
open Cert.ReferenceIdeal.Gen Cert.ReferenceIdeal.Read

theorem refMax_apply (x : FVec Ideal S512x10 .f32) (g : Fin 512) :
    refMax x (ix1 g) = max (Ideal.ofBits .f32 0xFF800000#32) (rowMax x g) := by
  unfold refMax rowMax
  rw [maximumf_apply, Host.reduce_eq_fold_single FloatOps.maximumf x _ reducesTo_S512x10_S512_d1 reduces_S512x10_S512]
  exact congrArg (max (Ideal.ofBits .f32 0xFF800000#32))
    (Finset.fold_congr (fun j _ => congrArg x (lift_row reduces_S512x10_S512 g j)))

theorem refShift_apply (x : FVec Ideal S512x10 .f32) (g : Fin 512) (k : Fin 10) :
    refShift x (ix2 g k) = x (ix2 g k) - max (Ideal.ofBits .f32 0xFF800000#32) (rowMax x g) := by
  unfold refShift
  rw [subf_apply, broadcastInDim_a1_ab_apply, broadcastInDim_a_a1_apply, refMax_apply]

theorem refLsm_apply (x : FVec Ideal S512x10 .f32) (g : Fin 512) (k : Fin 10) :
    refLsm x (ix2 g k)
      = (x (ix2 g k) - max (Ideal.ofBits .f32 0xFF800000#32) (rowMax x g))
          - Ideal.log (Ideal.ofBits .f32 0x00000000#32
              + ∑ j : Fin 10, Ideal.exp (x (ix2 g j) - max (Ideal.ofBits .f32 0xFF800000#32) (rowMax x g))) := by
  have hterm : ∀ j : Fin 10,
      Host.exp (F := Ideal) (refShift x) (reduces_S512x10_S512.lift (ix1 g) j)
        = Ideal.exp (x (ix2 g j) - max (Ideal.ofBits .f32 0xFF800000#32) (rowMax x g)) := fun j => by
    rw [lift_row reduces_S512x10_S512 g j, hostExp_apply, refShift_apply]
  unfold refLsm
  rw [subf_apply, refShift_apply, broadcastInDim_a1_ab_apply, hostLog_apply, broadcastInDim_a_a1_apply]
  simp only [Host.reduceAdd, Ideal.hostReduceAdd_def]
  rw [Ideal.hostReduceAdd_single reducesTo_S512x10_S512_d1 reduces_S512x10_S512]
  exact congrArg (fun t => _ - Ideal.log (Ideal.ofBits .f32 0x00000000#32 + t))
    (Finset.sum_congr rfl (fun j _ => hterm j))

end RefRead

theorem lsm_eq (x : FVec Ideal S512x10 .f32) (hx : AllReal x) : kerLsm x = refLsm x := by
  funext i
  obtain ⟨g, k, rfl⟩ : ∃ (g : Fin 512) (k : Fin 10), i = ix2 g k := ⟨i 0, i 1, eq_ix2 i⟩
  rw [kerLsm_apply, refLsm_apply]
  unfold rowMax
  rw [ofBits_f32_neg_inf, Ideal.ofBits_zero_f32]
  exact lsm_row (by decide) (fun j : Fin 10 => x (ix2 g j)) (fun j => hx (ix2 g j)) k

section Logits
open Cert.ReferenceIdeal.Gen Cert.ReferenceIdeal.Read

variable (S : FVec Ideal S512x256 .f32) (Ccol : FVec Ideal S512x1 .f32) (C : FVec Ideal S512 .f32)
  (W : FVec Ideal S256x10 .f32) (brow : FVec Ideal S1x10 .f32) (b : FVec Ideal S10 .f32)

theorem refDen_apply (p : Fin 512) (c : Fin 256) :
    broadcastInDim Cert.ReferenceIdeal.S512x256 ![0, 1] bcast_S512x1_S512x256_0_1
        (broadcastInDim Cert.ReferenceIdeal.S512x1 ![0] bcast_S512_S512x1_0
          (maximumf (F := Ideal) C (val_main_v123 (F := Ideal)))) (ix2 p c)
      = max (C (ix1 p)) (Ideal.ofBits .f32 0x3F800000#32) := by
  rw [broadcastInDim_a1_ab_apply, broadcastInDim_a_a1_apply, maximumf_apply]
  rfl

theorem kerDen_apply (hC : ∀ i, Ccol i = C (ix1 (i 0))) (p : Fin 512) (c : Fin 256) :
    broadcastTo S512x256
        (maximumf (F := Ideal) Ccol (broadcast S512x1 (Scalar.ofBits (F := Ideal) .f32 0x3F800000#32)))
        broadcasts_S512x1_S512x256 (ix2 p c)
      = max (C (ix1 p)) (Ideal.ofBits .f32 0x3F800000#32) := by
  rw [broadcastTo_a1_ab_apply, maximumf_apply, hC]
  rfl

theorem logits_eq (hC : ∀ i, Ccol i = C (ix1 (i 0))) (hb : ∀ i, brow i = b (ix1 (i 1))) :
    kerLogits S Ccol W brow = refLogits S C W b := by
  have hd : Cert.ReferenceIdeal.dot_S512x256_S256x10_S512x10_1_0_0_1_n_n
      = dot_S512x256_S256x10_S512x10_1_0_0_1_n_n := rfl
  funext i
  obtain ⟨g, k, rfl⟩ : ∃ (g : Fin 512) (k : Fin 10), i = ix2 g k := ⟨i 0, i 1, eq_ix2 i⟩
  unfold kerLogits refLogits
  rw [addf_apply, addf_apply, hd]
  simp only [matmul, Host.dotGeneral]
  rw [Ideal.matmul_constant_zero_apply, Ideal.dotGeneral_apply]
  have hbias : broadcastTo S512x10 (shapeCast S1x10 brow shapeCasts_S1x10_S1x10) broadcasts_S1x10_S512x10 (ix2 g k)
      = val_main_v130 (F := Ideal) b (ix2 g k) := by
    rw [broadcastTo_1b_ab_apply, shapeCast_self, hb, val_main_v130_apply, val_main_v129_apply]
    exact congrArg b (funext fun a => match a with | ⟨0, _⟩ => rfl)
  rw [hbias]
  refine congrArg (· + val_main_v130 (F := Ideal) b (ix2 g k)) (Finset.sum_congr rfl fun q _ => ?_)
  rw [truncf_apply, truncf_apply, divf_apply, hostDivf_apply]
  obtain ⟨p, c, hpc⟩ : ∃ (p : Fin 512) (c : Fin 256),
      dot_S512x256_S256x10_S512x10_1_0_0_1_n_n.lhsIdx (ix2 g k) q = ix2 p c := ⟨_, _, eq_ix2 _⟩
  rw [hpc, kerDen_apply Ccol C hC, refDen_apply]

theorem refLogits_real (hS : AllReal S) (hCr : AllReal C) (hW : AllReal W) (hbr : AllReal b) :
    AllReal (refLogits S C W b) := by
  unfold refLogits
  refine AllReal.addf (AllReal.dotGeneral ?_ hW) ?_
  · intro j
    obtain ⟨p, c, rfl⟩ : ∃ (p : Fin 512) (c : Fin 256), j = ix2 p c := ⟨j 0, j 1, eq_ix2 j⟩
    obtain ⟨s, hs⟩ := hS (ix2 p c)
    obtain ⟨n, hn⟩ := hCr (ix1 p)
    have hne : max n 1 ≠ 0 := ne_of_gt (lt_of_lt_of_le one_pos (le_max_right n 1))
    refine ⟨s * (1 / max n 1), ?_⟩
    rw [hostDivf_apply, refDen_apply, hs, hn, ofBits_f32_one, coe_max_real, Ideal.div_coe hne, EReal.coe_mul]
  · exact .broadcastInDim (.broadcastInDim hbr)

end Logits

theorem pool_tail (S : FVec Ideal S512x256 .f32) (Ccol : FVec Ideal S512x1 .f32) (C : FVec Ideal S512 .f32)
    (hC : ∀ i, Ccol i = C (ix1 (i 0))) (W : FVec Ideal S256x10 .f32) (brow : FVec Ideal S1x10 .f32)
    (b : FVec Ideal S10 .f32) (hb : ∀ i, brow i = b (ix1 (i 1)))
    (hS : Cert.Spec.AllReal S) (hCr : Cert.Spec.AllReal C) (hW : Cert.Spec.AllReal W) (hbr : Cert.Spec.AllReal b) :
    Gen.k8_pay6 (F := Ideal) S Ccol W brow = refTail S C W b := by
  rw [k8_pay6_eq, logits_eq S Ccol C W brow b hC hb]
  exact lsm_eq _ (refLogits_real S C W b hS hCr hW hbr)

end Cert.KernelIdeal.Val

end
-- ==== Proof.Value.RefReal.lean ====
import proofs.«427753_j34041910788666_1_alg».proof.Proof.RefRun
import proofs.«427753_j34041910788666_1_alg».proof.Proof.LibAllReal
import Idealize.ShloMosaic.PureOps.Ideal.Laws

noncomputable section

namespace Cert.Spec

open Idealize.ShloMosaic
open scoped BigOperators

def AllNonneg {S : Shape} (x : S.Idx → EReal) : Prop := AllReal x ∧ ∀ i, 0 ≤ x i

theorem AllPos.allNonneg {S : Shape} {x : S.Idx → EReal} (h : AllPos x) : AllNonneg x :=
  ⟨h.allReal, fun i => let ⟨_, h0, hr⟩ := h i; hr ▸ EReal.coe_nonneg.2 h0.le⟩

/-- An array whose every entry is the word of one is an array of positive reals. -/
theorem allPos_ones {S : Shape} {x : S.Idx → EReal} (h : ∀ i, x i = Ideal.ofBits .f32 0x3F800000#32) : AllPos x :=
  fun i => ⟨1, one_pos, (h i).trans ofBits_f32_one⟩

variable {s : Shape} {φ : FTy}

/-- Each entry of an accumulating scatter is an entry of the operand plus a finite sum of entries of the updates. -/
theorem AllNonneg.scatterAdd {si u : Shape} {w : Nat} {d : ScatterDims s si u} {x : FVec Ideal s φ} {idx : IVec si w}
    {upd : FVec Ideal u φ} (hx : AllNonneg x) (hu : AllNonneg upd) :
    AllNonneg (Host.scatterAdd (F := Ideal) d x idx upd) := by
  refine ⟨.scatterAdd hx.1 hu.1, fun i => ?_⟩
  have key : ∀ S : Finset u.Idx, 0 ≤ x i + ∑ j ∈ S, upd j := fun S =>
    add_nonneg (hx.2 i) (Finset.sum_nonneg fun j _ => hu.2 j)
  exact key _

theorem AllPos.addf_nonneg {x y : FVec Ideal s φ} (hx : AllPos x) (hy : AllNonneg y) :
    AllPos (addf (F := Ideal) x y) := by
  intro i
  obtain ⟨a, ha0, ha⟩ := hx i
  obtain ⟨b, hb⟩ := hy.1 i
  have hb0 : 0 ≤ b := EReal.coe_nonneg.1 (hb ▸ hy.2 i)
  exact ⟨a + b, add_pos_of_pos_of_nonneg ha0 hb0, by show x i + y i = _; rw [ha, hb, EReal.coe_add]⟩

/-- Off zero the quotient by a real `b` is the product with the real `1 / b`. -/
theorem AllReal.divf_pos {x y : FVec Ideal s φ} (hx : AllReal x) (hy : AllPos y) :
    AllReal (Host.divf (F := Ideal) x y) := by
  intro i
  obtain ⟨a, ha⟩ := hx i
  obtain ⟨b, hb0, hb⟩ := hy i
  refine ⟨a * (1 / b), ?_⟩
  show Ideal.div (x i) (y i) = _
  rw [ha, hb, Ideal.div_coe hb0.ne', ← EReal.coe_mul]

end Cert.Spec

namespace Cert.KernelIdeal.Val

open Cert.ReferenceIdeal Cert.ReferenceIdeal.Gen Cert.ReferenceIdeal.Read Idealize.ShloMosaic Idealize.ShloMosaic.TcCoe
  Idealize.SL.Sem Idealize.ShloMosaic.StableHlo
open Cert.Spec

variable (x0 : (⟨S50000x5, .f32⟩ : BufTy).Contents (Elt Ideal))
  (x1 : (⟨S2x800000, .i32⟩ : BufTy).Contents (Elt Ideal))
  (x2 : (⟨S50000, .i32⟩ : BufTy).Contents (Elt Ideal))
  (x3 : (⟨S5x32, .f32⟩ : BufTy).Contents (Elt Ideal))
  (x4 : (⟨S32, .f32⟩ : BufTy).Contents (Elt Ideal))
  (x5 : (⟨S32x64, .f32⟩ : BufTy).Contents (Elt Ideal))
  (x6 : (⟨S64, .f32⟩ : BufTy).Contents (Elt Ideal))
  (x7 : (⟨S64x128, .f32⟩ : BufTy).Contents (Elt Ideal))
  (x8 : (⟨S128, .f32⟩ : BufTy).Contents (Elt Ideal))
  (x9 : (⟨S128x256, .f32⟩ : BufTy).Contents (Elt Ideal))
  (x10 : (⟨S256, .f32⟩ : BufTy).Contents (Elt Ideal))

/-- A node's degree is one plus a count of edges: a positive real, whatever the edge list holds. -/
theorem pos_v9 : AllPos (val_main_v9 (F := Ideal) x1) :=
  .addf_nonneg (allPos_ones fun _ => rfl)
    (.scatterAdd ⟨.broadcastInDim .constant_zero, fun _ => Ideal.ofBits_zero_f32.ge⟩ (AllPos.allNonneg (allPos_ones fun _ => rfl)))

theorem real_v12 : AllReal (val_main_v12 (F := Ideal) x1) :=
  .divf_pos (AllPos.allReal (allPos_ones fun _ => rfl)) (pos_v9 x1)

theorem real_v27 : AllReal (val_main_v27 (F := Ideal) x1) :=
  have r : AllReal (val_main_v10 (F := Ideal) x1) := (pos_v9 x1).hostRsqrt.allReal
  .mulf (.gather r) (.gather r)

variable (h0 : AllReal x0) (h3 : AllReal x3) (h4 : AllReal x4) (h5 : AllReal x5) (h6 : AllReal x6) (h7 : AllReal x7)
  (h8 : AllReal x8) (h9 : AllReal x9) (h10 : AllReal x10)

include h0 h3 h4 in
/-- A layer's output is real: finite sums, products, re-indexings and a maximum of real entries. -/
theorem real_v49 : AllReal (val_main_v49 (F := Ideal) x0 x1 x3 x4) :=
  have d : AllReal (val_main_v28 (F := Ideal) x0 x3) := .dotGeneral h0 h3
  .maximumf (.addf (.addf (.scatterAdd (.broadcastInDim .constant_zero)
      (.mulf (.gather d) (.broadcastInDim (.broadcastInDim (real_v27 x1)))))
    (.mulf d (.broadcastInDim (.broadcastInDim (real_v12 x1))))) (.broadcastInDim (.broadcastInDim h4)))
    (.broadcastInDim .constant_zero)

include h0 h3 h4 h5 h6 in
theorem real_v71 : AllReal (val_main_v71 (F := Ideal) x0 x1 x3 x4 x5 x6) :=
  have d : AllReal (val_main_v50 (F := Ideal) x0 x1 x3 x4 x5) := .dotGeneral (real_v49 x0 x1 x3 x4 h0 h3 h4) h5
  .maximumf (.addf (.addf (.scatterAdd (.broadcastInDim .constant_zero)
      (.mulf (.gather d) (.broadcastInDim (.broadcastInDim (real_v27 x1)))))
    (.mulf d (.broadcastInDim (.broadcastInDim (real_v12 x1))))) (.broadcastInDim (.broadcastInDim h6)))
    (.broadcastInDim .constant_zero)

include h0 h3 h4 h5 h6 h7 h8 in
theorem real_v93 : AllReal (val_main_v93 (F := Ideal) x0 x1 x3 x4 x5 x6 x7 x8) :=
  have d : AllReal (val_main_v72 (F := Ideal) x0 x1 x3 x4 x5 x6 x7) :=
    .dotGeneral (real_v71 x0 x1 x3 x4 x5 x6 h0 h3 h4 h5 h6) h7
  .maximumf (.addf (.addf (.scatterAdd (.broadcastInDim .constant_zero)
      (.mulf (.gather d) (.broadcastInDim (.broadcastInDim (real_v27 x1)))))
    (.mulf d (.broadcastInDim (.broadcastInDim (real_v12 x1))))) (.broadcastInDim (.broadcastInDim h8)))
    (.broadcastInDim .constant_zero)

include h0 h3 h4 h5 h6 h7 h8 h9 h10

theorem real_v115 : AllReal (val_main_v115 (F := Ideal) x0 x1 x3 x4 x5 x6 x7 x8 x9 x10) :=
  have d : AllReal (val_main_v94 (F := Ideal) x0 x1 x3 x4 x5 x6 x7 x8 x9) :=
    .dotGeneral (real_v93 x0 x1 x3 x4 x5 x6 x7 x8 h0 h3 h4 h5 h6 h7 h8) h9
  .maximumf (.addf (.addf (.scatterAdd (.broadcastInDim .constant_zero)
      (.mulf (.gather d) (.broadcastInDim (.broadcastInDim (real_v27 x1)))))
    (.mulf d (.broadcastInDim (.broadcastInDim (real_v12 x1))))) (.broadcastInDim (.broadcastInDim h10)))
    (.broadcastInDim .constant_zero)

theorem real_v118 : AllReal (val_main_v118 (F := Ideal) x0 x1 x2 x3 x4 x5 x6 x7 x8 x9 x10) :=
  .scatterAdd (.broadcastInDim .constant_zero) (real_v115 x0 x1 x3 x4 x5 x6 x7 x8 x9 x10 h0 h3 h4 h5 h6 h7 h8 h9 h10)

end Cert.KernelIdeal.Val

end
-- ==== Proof.Value.ChainPool.lean ====
import proofs.«427753_j34041910788666_1_alg».proof.Proof.KernelIdeal.Fold
import proofs.«427753_j34041910788666_1_alg».proof.Proof.RefRun
import proofs.«427753_j34041910788666_1_alg».proof.Proof.LibAllReal
import proofs.«427753_j34041910788666_1_alg».proof.Proof.Value.PreFacts
import proofs.«427753_j34041910788666_1_alg».proof.Proof.Value.PoolSpec
import proofs.«427753_j34041910788666_1_alg».proof.Proof.Value.ValP8
import proofs.«427753_j34041910788666_1_alg».proof.Proof.Value.RefScatter
import proofs.«427753_j34041910788666_1_alg».proof.Proof.Value.PoolBridge
import proofs.«427753_j34041910788666_1_alg».proof.Proof.Value.RefReal
import proofs.«427753_j34041910788666_1_alg».proof.Defs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val.ChainPool

section Layouts
open Idealize.ShloMosaic Idealize.ShloMosaic.ValueIdx
open Cert.ReferenceIdeal Cert.ReferenceIdeal.Gen Cert.ReferenceIdeal.Read
open Cert.Spec
open scoped BigOperators

theorem idsColumn_eq (x2 : IVec S50000 32) (h : S50000.ShapeCasts S50000x1) :
    shapeCast S50000x1 x2 h = val_main_v117 (F := Ideal) x2 := by
  funext i
  obtain ⟨p, c, rfl⟩ : ∃ (p : Fin 50000) (c : Fin 1), i = ix2 p c := ⟨i 0, i 1, eq_ix2 i⟩
  exact (shapeCast_a_a1_apply x2 h p c).trans (broadcastInDim_a_a1_apply x2 _ p c).symm

theorem biasRow_apply (x12 : FVec Ideal S10 .f32) (h : S10.ShapeCasts S1x10) (i : S1x10.Idx) :
    shapeCast S1x10 x12 h i = x12 (ix1 (i 1)) := by
  obtain ⟨u, k, rfl⟩ : ∃ (u : Fin 1) (k : Fin 10), i = ix2 u k := ⟨i 0, i 1, eq_ix2 i⟩
  exact shapeCast_a_1a_apply x12 h u k

/-- A count is a finite sum of ones and zeros. -/
theorem real_segCount (ids : IVec S50000x1 32) (i : S512x1.Idx) : ∃ r : ℝ, segCount ids i = (r : EReal) := by
  refine exists_real_sum _ _ (fun n _ => ?_)
  by_cases hn : ids (ix2 n (0 : Fin 1)) = BitVec.ofNat 32 (i 0).val
  · rw [if_pos hn]; exact ⟨1, by rw [EReal.coe_one]⟩
  · rw [if_neg hn]; exact ⟨0, by rw [EReal.coe_zero]⟩

variable [Cert.Pre_finite_inputs.Facts]

/-- On real arrays the two programs' tails agree, and sums, counts, features and arguments are all real. -/
theorem pool_value (x0 x1 x2 x3 x4 x5 x6 x7 x8 x9 x10 x11 x12)
    (hpre : Cert.Pre_finite_inputs.fn (F := Ideal) x0 x1 x2 x3 x4 x5 x6 x7 x8 x9 x10 x11 x12 = (fun _ => 1#1))
    (ids : IVec S50000x1 32) (feats : FVec Ideal S50000x256 .f32) (w : FVec Ideal S256x10 .f32) (brow : FVec Ideal S1x10 .f32)
    (hids : ids = val_main_v117 (F := Ideal) x2) (hfeats : feats = val_main_v115 (F := Ideal) x0 x1 x3 x4 x5 x6 x7 x8 x9 x10)
    (hw : w = x11) (hbrow : ∀ i, brow i = x12 (ix1 (i 1))) :
    Cert.KernelIdeal.Gen.k8_pay6 (F := Ideal) (segSum ids feats) (segCount ids) w brow
      = val_main_v132 (F := Ideal) x0 x1 x2 x3 x4 x5 x6 x7 x8 x9 x10 x11 x12 := by
  subst hids hfeats
  rw [hw]
  obtain ⟨r0, r3, r4, r5, r6, r7, r8, r9, r10, r11, r12, -⟩ := pre_facts x0 x1 x2 x3 x4 x5 x6 x7 x8 x9 x10 x11 x12 hpre
  have hS : AllReal (segSum (val_main_v117 (F := Ideal) x2) (val_main_v115 (F := Ideal) x0 x1 x3 x4 x5 x6 x7 x8 x9 x10)) := by
    have q := real_v118 x0 x1 x2 x3 x4 x5 x6 x7 x8 x9 x10 r0 r3 r4 r5 r6 r7 r8 r9 r10
    unfold val_main_v118 at q
    rw [scatter_sums] at q
    exact q
  have hC : ∀ i : S512x1.Idx, segCount (val_main_v117 (F := Ideal) x2) i = val_main_v122 (F := Ideal) x2 (ix1 (i 0)) := by
    intro i
    rw [scatter_counts]
    rfl
  have hCr : AllReal (val_main_v122 (F := Ideal) x2) := by
    intro i
    rw [scatter_counts]
    exact real_segCount _ _
  refine (pool_tail _ _ _ hC x11 brow x12 hbrow hS hCr r11 r12).trans ?_
  rw [val_v132_eq_refTail]
  unfold val_main_v118
  rw [scatter_sums]

end Layouts

section Chain
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.Spec

variable (m : (ℓ : Loc nD τ sig) → Buf (Elt Ideal) ℓ) (ρ : Dev nD → PrngReg) (c : Dev nD)

theorem w17_ids : W17 m ρ c (Proc.devRef .tc main_arg2) = m ((c.tc : Thread nD τ).loc main_arg2) :=
  ((W19_of_ne m ρ c main_arg2 (by decide)).trans
    (StableHlo.after_of_writes_sub hostOps8 _ hostOps8_writes (by decide))).symm.trans (W19_kept m ρ c main_arg2 (by decide))

theorem w17_bias : W17 m ρ c (Proc.devRef .tc main_arg12) = m ((c.tc : Thread nD τ).loc main_arg12) :=
  ((W19_of_ne m ρ c main_arg12 (by decide)).trans
    (StableHlo.after_of_writes_sub hostOps8 _ hostOps8_writes (by decide))).symm.trans (W19_kept m ρ c main_arg12 (by decide))

theorem w18_weight : W18 m ρ c (Proc.devRef .tc main_arg11) = m ((c.tc : Thread nD τ).loc main_arg11) :=
  ((W19_arr m ρ c 2).trans (((dat8 (V18 m ρ) c).arrAt_in 2 rfl _).trans (A_eq8 (V18 m ρ) c 2))).symm.trans
    (W19_kept m ρ c main_arg11 (by decide))

theorem v18_ids :
    (V18 m ρ c main_v72 : IVec S50000x1 32)
      = Cert.ReferenceIdeal.Read.val_main_v117 (F := Ideal) (m ((c.tc : Thread nD τ).loc main_arg2)) := by
  have e : StableHlo.after hostOps8 (W17 m ρ c) (Proc.devRef .tc main_v72)
      = shapeCast S50000x1 (W17 m ρ c (Proc.devRef .tc main_arg2) : IVec S50000 32) shapeCasts_S50000_S50000x1 := by
    after_results; rfl
  refine e.trans ?_
  refine (congrArg (fun x : IVec S50000 32 => shapeCast S50000x1 x shapeCasts_S50000_S50000x1) (w17_ids m ρ c)).trans ?_
  exact idsColumn_eq _ _

theorem v18_bias (i : S1x10.Idx) :
    (V18 m ρ c main_v73 : FVec Ideal S1x10 .f32) i = (m ((c.tc : Thread nD τ).loc main_arg12) : FVec Ideal S10 .f32) (ix1 (i 1)) := by
  have e : StableHlo.after hostOps8 (W17 m ρ c) (Proc.devRef .tc main_v73)
      = shapeCast S1x10 (W17 m ρ c (Proc.devRef .tc main_arg12) : FVec Ideal S10 .f32) shapeCasts_S10_S1x10 := by
    after_results; rfl
  refine (congrFun e i).trans ?_
  refine (congrFun (congrArg (fun x : FVec Ideal S10 .f32 => shapeCast S1x10 x shapeCasts_S10_S1x10) (w17_bias m ρ c)) i).trans ?_
  exact biasRow_apply _ _ i

end Chain

end Cert.KernelIdeal.Val.ChainPool

namespace Cert.KernelIdeal.Val

section Pool
open Idealize.ShloMosaic Idealize.ShloMosaic.TcCoe Idealize.SL.Sem Idealize.ShloMosaic.ValueIdx
open Cert.KernelIdeal Cert.KernelIdeal.Gen Cert.KernelIdeal.Hand
open Cert.KernelIdeal.Val.ChainPool

variable (m : (ℓ : Loc nD τ sig) → Buf (Elt Ideal) ℓ) (ρ : Dev nD → PrngReg) (c : Dev nD)
variable [Cert.Pre_finite_inputs.Facts]

theorem pool (hpre : Cert.Pre_KernelIdeal m)
    (hin : (W17 m ρ c (Proc.devRef .tc main_v71) : FVec Ideal S50000x256 .f32)
      = Cert.ReferenceIdeal.Read.val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (W19 m ρ c (Proc.devRef .tc main_v74) : FVec Ideal S512x10 .f32)
      = Cert.ReferenceIdeal.Read.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have e71 := (StableHlo.after_of_writes_sub hostOps8 _ hostOps8_writes (by decide)).trans hin
  refine ((W19_arr m ρ c 4).trans (arrP8 (V18 m ρ) c)).trans ?_
  exact pool_value _ _ _ _ _ _ _ _ _ _ _ _ _ (hpre c) _ _ _ _ (v18_ids m ρ c) e71 (w18_weight m ρ c) (v18_bias m ρ c)

end Pool

end Cert.KernelIdeal.Val

end
-- ==== Proof.Value.Final.lean ====
import proofs.«427753_j34041910788666_1_alg».proof.Proof.Value.Layers
import proofs.«427753_j34041910788666_1_alg».proof.Proof.Value.ChainPool

noncomputable section

namespace Cert.KernelIdeal.Val

open Idealize.ShloMosaic Idealize.ShloMosaic.TcCoe Idealize.SL.Sem
open Cert.KernelIdeal Cert.KernelIdeal.Gen Cert.KernelIdeal.Hand

variable [Cert.Pre_finite_inputs.Facts]
variable (m : (ℓ : Loc nD τ sig) → Buf (Elt Ideal) ℓ) (ρ : Dev nD → PrngReg) (c : Dev nD)

/-- Each layer starts from the features the layer before left, and the pooling stage from the last layer's. -/
theorem kernel_value (hpre : Cert.Pre_KernelIdeal m) :
    (W19 m ρ c (Proc.devRef .tc main_v74) : FVec Ideal S512x10 .f32)
      = Cert.ReferenceIdeal.Read.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  pool m ρ c hpre (layer4 m ρ c hpre (layer3 m ρ c hpre (layer2 m ρ c hpre (layer1 m ρ c hpre))))

end Cert.KernelIdeal.Val

end
-- ==== Proof.lean ====
import proofs.«427753_j34041910788666_1_alg».proof.Defs
import proofs.«427753_j34041910788666_1_alg».proof.Proof.Gen.Kernel
import proofs.«427753_j34041910788666_1_alg».proof.Proof.Gen.KernelIdeal
import proofs.«427753_j34041910788666_1_alg».proof.Proof.Gen.ReferenceIdeal
import proofs.«427753_j34041910788666_1_alg».proof.Proof.Gen.Pre_finite_inputs
import proofs.«427753_j34041910788666_1_alg».proof.Proof.Kernel.Run
import proofs.«427753_j34041910788666_1_alg».proof.Proof.KernelIdeal.Run
import proofs.«427753_j34041910788666_1_alg».proof.Proof.RefRun
import proofs.«427753_j34041910788666_1_alg».proof.Proof.Value.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernel_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's result term of the arguments, which agree. -/
theorem algebraic : Cert.algebraic_KernelIdeal_ReferenceIdeal := by
  intro m ρ m' ρ' hpre hagree
  refine ⟨fun c => Cert.ReferenceIdeal.Value.res_main_v132 m' c, ?_, Cert.ReferenceIdeal.Value.run (F := Ideal) m' ρ'⟩
  refine (θ_run Cert.KernelIdeal.defs _ _).mono (fun r h c => ?_) (Cert.KernelIdeal.Hand.run_all (F := Ideal) m ρ)
  have kept := fun b hs hk => (h c _ (Cert.KernelIdeal.Hand.mem_uc b hs)).trans (Cert.KernelIdeal.Hand.W19_kept m ρ c b hk)
  refine ⟨?_, kept Cert.KernelIdeal.main_arg0 (by decide) (by decide), kept Cert.KernelIdeal.main_arg1 (by decide) (by decide),
    kept Cert.KernelIdeal.main_arg2 (by decide) (by decide), kept Cert.KernelIdeal.main_arg3 (by decide) (by decide),
    kept Cert.KernelIdeal.main_arg4 (by decide) (by decide), kept Cert.KernelIdeal.main_arg5 (by decide) (by decide),
    kept Cert.KernelIdeal.main_arg6 (by decide) (by decide), kept Cert.KernelIdeal.main_arg7 (by decide) (by decide),
    kept Cert.KernelIdeal.main_arg8 (by decide) (by decide), kept Cert.KernelIdeal.main_arg9 (by decide) (by decide),
    kept Cert.KernelIdeal.main_arg10 (by decide) (by decide), kept Cert.KernelIdeal.main_arg11 (by decide) (by decide),
    kept Cert.KernelIdeal.main_arg12 (by decide) (by decide)⟩
  obtain ⟨a0, a1, a2, a3, a4, a5, a6, a7, a8, a9, a10, a11, a12⟩ := hagree c
  refine (h c _ (Cert.KernelIdeal.Hand.mem_uc Cert.KernelIdeal.main_v74 (by decide))).trans ?_
  refine (Cert.KernelIdeal.Val.kernel_value m ρ c hpre).trans ?_
  show _ = Cert.ReferenceIdeal.Value.res_main_v132 m' c
  rw [Cert.ReferenceIdeal.Read.val_main_v132_eq m' c, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
